-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.truncf_extf.Statement Cert.KernelIdeal.S5000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v123)) (v1 : (c : Dev Cert.KernelIdeal.nD) → Buf (Elt Ideal) ((c.tc : Thread Cert.KernelIdeal.nD Cert.KernelIdeal.τ).loc Cert.KernelIdeal.main_v130)) (v2 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_v130) = v1 c
          ∧ r.2.mem ((c.tc : Thread Cert.KernelIdeal.nD Cert.KernelIdeal.τ).loc Cert.KernelIdeal.main_v134) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x2 : Shape := ⟨2, ![1600000, 2]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg16 : FVec F S128x128 .f32) (main_arg17 : FVec F S128 .f32) (main_arg18 : FVec F S128x2 .f32) (main_arg19 : FVec F S2 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x2 .f32 := Host.absf main_arg18
  let main_cst_30 : FVec F S_ .f32 := constant S_ .f32 0x7F800000#32
  let main_v80 : FVec F S128x2 .f32 := broadcastInDim S128x2 ![] bcast_S_S128x2 main_cst_30
  let main_v81 : IVec S128x2 1 := cmpf .olt main_v79 main_v80
  let main_c_31 : IVec S_ 1 := constantI S_ 1 1#1
  let main_v82 : IVec S_ 1 := (fun x v => Host.reduce IntOp.andi x v reducesTo_S128x2_S_d0_1 h_S_) main_v81 main_c_31
  let main_v83 : IVec S_ 1 := andi main_v78 main_v82
  let main_v84 : FVec F S2 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x2 .f32) (main_arg19 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x2 .f32) (main_arg19 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x2 .f32) (main_arg19 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S1600000x2 .f32) (main_arg3 : IVec S100000 32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x2 .f32) (main_arg19 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S1600000x2 : Shape := ⟨2, ![1600000, 2]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1600000x1 : Shape := ⟨2, ![1600000, 1]⟩
abbrev S_ : Shape := ⟨0, ![]⟩
abbrev S1x128 : Shape := ⟨2, ![1, 128]⟩
abbrev S5000x128 : Shape := ⟨2, ![5000, 128]⟩
abbrev S1600000x128 : Shape := ⟨2, ![1600000, 128]⟩
abbrev S100000x1 : Shape := ⟨2, ![100000, 1]⟩
abbrev S64x128 : Shape := ⟨2, ![64, 128]⟩
abbrev S1x64 : Shape := ⟨2, ![1, 64]⟩
abbrev S5000x1 : Shape := ⟨2, ![5000, 1]⟩
abbrev S5000x64 : Shape := ⟨2, ![5000, 64]⟩
abbrev S64 : Shape := ⟨1, ![64]⟩
abbrev S64x1 : Shape := ⟨2, ![64, 1]⟩
abbrev S1x2 : Shape := ⟨2, ![1, 2]⟩
abbrev S64x2 : Shape := ⟨2, ![64, 2]⟩

abbrev nBuf : Space → Nat
  | .hbm => 193
  | .vmem => 68
  | .smem => 0
  | _ => 0

abbrev hbmTy0_0 (i : Nat) : BufTy := match i % 128 with
  | 0 => ⟨S100000x128, .f32⟩
  | 1 => ⟨S2x1600000, .i32⟩
  | 2 => ⟨S1600000x2, .f32⟩
  | 3 => ⟨S100000, .i32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x2, .f32⟩
  | 19 => ⟨S2, .f32⟩
  | 20 => ⟨S1x1600000, .i32⟩
  | 21 => ⟨S1600000, .i32⟩
  | 22 => ⟨S1x1600000, .i32⟩
  | 23 => ⟨S1600000, .i32⟩
  | 24 => ⟨S1600000x1, .f32⟩
  | 25 => ⟨S1600000, .f32⟩
  | 26 => ⟨S_, .f32⟩
  | 27 => ⟨S128, .f32⟩
  | 28 => ⟨S1x128, .f32⟩
  | 29 => ⟨S100000x128, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000, .f32⟩
  | 64 => ⟨S1600000, .f32⟩
  | 65 => ⟨S1600000x1, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S1600000x128, .f32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S100000, .f32⟩
  | 82 => ⟨S100000x1, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S100000x128, .f32⟩
  | 101 => ⟨S_, .f32⟩
  | 102 => ⟨S128, .f32⟩
  | 103 => ⟨S1x128, .f32⟩
  | 104 => ⟨S100000x128, .f32⟩
  | 105 => ⟨S_, .f32⟩
  | 106 => ⟨S100000, .f32⟩
  | 107 => ⟨S1600000x1, .i32⟩
  | 108 => ⟨S100000, .f32⟩
  | 109 => ⟨S_, .f32⟩
  | 110 => ⟨S100000, .f32⟩
  | 111 => ⟨S100000, .f32⟩
  | 112 => ⟨S_, .f32⟩
  | 113 => ⟨S100000, .f32⟩
  | 114 => ⟨S100000, .i1⟩
  | 115 => ⟨S100000, .f32⟩
  | 116 => ⟨S_, .f32⟩
  | 117 => ⟨S_, .f32⟩
  | 118 => ⟨S100000, .f32⟩
  | 119 => ⟨S100000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S1600000, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000, .f32⟩
  | 11 => ⟨S1600000, .f32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S1600000x128, .f32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S100000x128, .f32⟩
  | 48 => ⟨S1x128, .f32⟩
  | 49 => ⟨S100000x128, .f32⟩
  | 50 => ⟨S1x128, .f32⟩
  | 51 => ⟨S100000x128, .f32⟩
  | 52 => ⟨S100000x1, .i32⟩
  | 53 => ⟨S64x128, .f32⟩
  | 54 => ⟨S1x64, .f32⟩
  | 55 => ⟨S64x1, .f32⟩
  | 56 => ⟨S_, .f32⟩
  | 57 => ⟨S64x1, .f32⟩
  | 58 => ⟨S64x1, .f32⟩
  | 59 => ⟨S64x128, .f32⟩
  | 60 => ⟨S64x128, .f32⟩
  | 61 => ⟨S1x128, .f32⟩
  | 62 => ⟨S64x128, .f32⟩
  | 63 => ⟨S1x2, .f32⟩
  | 64 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .i32⟩
  | .local _ .vmem, ⟨57, _⟩ => ⟨S5000x1, .i32⟩
  | .local _ .vmem, ⟨58, _⟩ => ⟨S64x128, .f32⟩
  | .local _ .vmem, ⟨59, _⟩ => ⟨S1x64, .f32⟩
  | .local _ .vmem, ⟨60, _⟩ => ⟨S64x128, .f32⟩
  | .local _ .vmem, ⟨61, _⟩ => ⟨S128x128, .f32⟩
  | .local _ .vmem, ⟨62, _⟩ => ⟨S1x128, .f32⟩
  | .local _ .vmem, ⟨63, _⟩ => ⟨S64x128, .f32⟩
  | .local _ .vmem, ⟨64, _⟩ => ⟨S64x128, .f32⟩
  | .local _ .vmem, ⟨65, _⟩ => ⟨S128x2, .f32⟩
  | .local _ .vmem, ⟨66, _⟩ => ⟨S1x2, .f32⟩
  | .local _ .vmem, ⟨67, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v17 : Ref sig .tc := ⟨.hbm, 44, rfl⟩
abbrev main_c : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_c_8 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53_0 : Ref sig .tc := ⟨.hbm, 87, rfl⟩
abbrev main_v53_1 : Ref sig .tc := ⟨.hbm, 88, rfl⟩
abbrev main_v53_2 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_cst_11 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_v70 : Ref sig .tc := ⟨.hbm, 111, rfl⟩
abbrev main_cst_15 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_call1_v0 : Ref sig .tc := ⟨.hbm, 117, rfl⟩
abbrev main_call1_v1 : Ref sig .tc := ⟨.hbm, 118, rfl⟩
abbrev main_v74 : Ref sig .tc := ⟨.hbm, 119, rfl⟩
abbrev main_c_17 : Ref sig .tc := ⟨.hbm, 120, rfl⟩
abbrev main_v75 : Ref sig .tc := ⟨.hbm, 121, rfl⟩
abbrev main_v76 : Ref sig .tc := ⟨.hbm, 122, rfl⟩
abbrev main_c_18 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_19 : Ref sig .tc := ⟨.hbm, 130, rfl⟩
abbrev main_v83 : Ref sig .tc := ⟨.hbm, 131, rfl⟩
abbrev main_v84 : Ref sig .tc := ⟨.hbm, 132, rfl⟩
abbrev main_c_20 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_c_21 : Ref sig .tc := ⟨.hbm, 141, rfl⟩
abbrev main_v92 : Ref sig .tc := ⟨.hbm, 142, rfl⟩
abbrev main_v93 : Ref sig .tc := ⟨.hbm, 143, rfl⟩
abbrev main_c_22 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_23 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110_0 : Ref sig .tc := ⟨.hbm, 162, rfl⟩
abbrev main_v110_1 : Ref sig .tc := ⟨.hbm, 163, rfl⟩
abbrev main_v110_2 : Ref sig .tc := ⟨.hbm, 164, rfl⟩
abbrev main_cst_24 : Ref sig .tc := ⟨.hbm, 165, rfl⟩
abbrev main_v111 : Ref sig .tc := ⟨.hbm, 166, rfl⟩
abbrev main_v112 : Ref sig .tc := ⟨.hbm, 167, rfl⟩
abbrev main_cst_25 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125_0 : Ref sig .tc := ⟨.hbm, 181, rfl⟩
abbrev main_v125_1 : Ref sig .tc := ⟨.hbm, 182, rfl⟩
abbrev main_v126 : Ref sig .tc := ⟨.hbm, 183, rfl⟩
abbrev main_cst_26 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg3_0 : Ref sig .tc := ⟨.vmem, 59, rfl⟩
abbrev cc9_stg0_0 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg3_0 : Ref sig .tc := ⟨.vmem, 63, rfl⟩
abbrev cc10_stg0_0 : Ref sig .tc := ⟨.vmem, 64, rfl⟩
abbrev cc10_stg1_0 : Ref sig .tc := ⟨.vmem, 65, rfl⟩
abbrev cc10_stg2_0 : Ref sig .tc := ⟨.vmem, 66, rfl⟩
abbrev cc10_stg3_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem4_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc9_sem0_0 : DmaSem sig := 60
abbrev cc9_sem1_0 : DmaSem sig := 61
abbrev cc9_sem2_0 : DmaSem sig := 62
abbrev cc9_sem3_0 : DmaSem sig := 63
abbrev cc10_sem0_0 : DmaSem sig := 64
abbrev cc10_sem1_0 : DmaSem sig := 65
abbrev cc10_sem2_0 : DmaSem sig := 66
abbrev cc10_sem3_0 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S64x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S128x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S1600000x2_S1600000x1_0_1 : S1600000x2.Slices ![0, 1] S1600000x1
  shapeCasts_S1600000x1_S1600000 : S1600000x1.ShapeCasts S1600000
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  shapeCasts_S100000_S100000x1 : S100000.ShapeCasts S100000x1
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  shapeCasts_S64x128_S64x128 : S64x128.ShapeCasts S64x128
  shapeCasts_S1x64_S1x64 : S1x64.ShapeCasts S1x64
  reduces_S5000x64_S64 : S5000x64.Reduces [0] S64
  shapeCasts_S64_S1x64 : S64.ShapeCasts S1x64
  shapeCasts_S1x64_S64x1 : S1x64.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  broadcasts_S1x128_S64x128 : S1x128.Broadcasts S64x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .i32 = 32 ∨ (Rect.block (s := S100000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x128.size a ≤ S64x128.size a
  hwx8_2 : ∀ i : grid8.Coords, EltTy.bits .f32 = 32 ∨ (Rect.block (s := S64x128) S64x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S64x128.size a ≤ S64x128.size a
  hwx9_0 : ∀ i : grid9.Coords, EltTy.bits .f32 = 32 ∨ (Rect.block (s := S64x128) S64x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S64x128.size a ≤ S64x128.size a
  hwx9_3 : ∀ i : grid9.Coords, EltTy.bits .f32 = 32 ∨ (Rect.block (s := S64x128) S64x128.size (cc9_transform_3 i) (hinb9_3 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S64x128.size a ≤ S64x128.size a
  hwx10_0 : ∀ i : grid10.Coords, EltTy.bits .f32 = 32 ∨ (Rect.block (s := S64x128) S64x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x2.size a ≤ S128x2.size a
  hwx10_1 : ∀ i : grid10.Coords, EltTy.bits .f32 = 32 ∨ (Rect.block (s := S128x2) S128x2.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2.size a ≤ S1x2.size a
  hwx10_2 : ∀ i : grid10.Coords, EltTy.bits .f32 = 32 ∨ (Rect.block (s := S1x2) S1x2.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S64x2.size a ≤ S64x2.size a
  hwx10_3 : ∀ i : grid10.Coords, EltTy.bits .f32 = 32 ∨ (Rect.block (s := S64x2) S64x2.size (cc10_transform_3 i) (hinb10_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v108) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v110_0) S5000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v110_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v110_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v110_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v112) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v116) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v118) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v119) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v119) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v120) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v121) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v121) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg14) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v122) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v123) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v123) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v124) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v125_0) S64x128.size cc8_transform_2 reads8_2 true true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125_1) S1x64.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v130) S64x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v131) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v132) S64x128.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v132) S64x128.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_arg18) S128x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v133) S1x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v134) S64x2.size cc10_transform_3 reads10_3 true false 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x2 : Shape := ⟨2, ![1600000, 2]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩
abbrev S100000x1 : Shape := ⟨2, ![100000, 1]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x2 : Shape := ⟨2, ![64, 2]⟩
abbrev S1x2 : Shape := ⟨2, ![1, 2]⟩

abbrev nBuf : Space → Nat
  | .hbm => 278
  | .vmem => 0
  | .smem => 0
  | _ => 0

abbrev hbmTy0_0 (i : Nat) : BufTy := match i % 128 with
  | 0 => ⟨S100000x128, .f32⟩
  | 1 => ⟨S2x1600000, .i32⟩
  | 2 => ⟨S1600000x2, .f32⟩
  | 3 => ⟨S100000, .i32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x2, .f32⟩
  | 19 => ⟨S2, .f32⟩
  | 20 => ⟨S1x1600000, .i32⟩
  | 21 => ⟨S1600000, .i32⟩
  | 22 => ⟨S1x1600000, .i32⟩
  | 23 => ⟨S1600000, .i32⟩
  | 24 => ⟨S1600000x1, .f32⟩
  | 25 => ⟨S1600000, .f32⟩
  | 26 => ⟨S100000x128, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S1600000x1, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S128, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S100000x128, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .f32⟩
  | 13 => ⟨S_, .f32⟩
  | 14 => ⟨S100000, .f32⟩
  | 15 => ⟨S100000, .i1⟩
  | 16 => ⟨S100000, .f32⟩
  | 17 => ⟨S_, .f32⟩
  | 18 => ⟨S_, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S1600000x1, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S100000x128, .f32⟩
  | 81 => ⟨S100000x128, .f32⟩
  | 82 => ⟨S100000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x128, .f32⟩

abbrev hbmTy0_2 (i : Nat) : BufTy := match i % 128 with
  | 0 => ⟨S64, .f32⟩
  | 1 => ⟨S_, .f32⟩
  | 2 => ⟨S64x128, .f32⟩
  | 3 => ⟨S100000x1, .i32⟩
  | 4 => ⟨S64x128, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x128, .f32⟩
  | 12 => ⟨S1x128, .f32⟩
  | 13 => ⟨S64x128, .f32⟩
  | 14 => ⟨S64x128, .f32⟩
  | 15 => ⟨S_, .f32⟩
  | 16 => ⟨S64x128, .f32⟩
  | 17 => ⟨S64x128, .f32⟩
  | 18 => ⟨S64x2, .f32⟩
  | 19 => ⟨S1x2, .f32⟩
  | 20 => ⟨S64x2, .f32⟩
  | 21 => ⟨S64x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_call1_cst : Ref sig .tc := ⟨.hbm, 86, rfl⟩
abbrev main_call1_v0 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_c_11 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_cst_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_cst_1 : Ref sig .tc := ⟨.hbm, 105, rfl⟩
abbrev main_call2_v8 : Ref sig .tc := ⟨.hbm, 106, rfl⟩
abbrev main_call2_cst_2 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_cst_3 : Ref sig .tc := ⟨.hbm, 111, rfl⟩
abbrev main_call2_v12 : Ref sig .tc := ⟨.hbm, 112, rfl⟩
abbrev main_call2_cst_4 : Ref sig .tc := ⟨.hbm, 113, rfl⟩
abbrev main_call2_call0_v0 : Ref sig .tc := ⟨.hbm, 114, rfl⟩
abbrev main_call2_call0_v1 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_cst_12 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_13 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_14 : Ref sig .tc := ⟨.hbm, 138, rfl⟩
abbrev main_v77 : Ref sig .tc := ⟨.hbm, 139, rfl⟩
abbrev main_v78 : Ref sig .tc := ⟨.hbm, 140, rfl⟩
abbrev main_cst_15 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_16 : Ref sig .tc := ⟨.hbm, 145, rfl⟩
abbrev main_call3_v0 : Ref sig .tc := ⟨.hbm, 146, rfl⟩
abbrev main_call3_v1 : Ref sig .tc := ⟨.hbm, 147, rfl⟩
abbrev main_v82 : Ref sig .tc := ⟨.hbm, 148, rfl⟩
abbrev main_c_17 : Ref sig .tc := ⟨.hbm, 149, rfl⟩
abbrev main_v83 : Ref sig .tc := ⟨.hbm, 150, rfl⟩
abbrev main_v84 : Ref sig .tc := ⟨.hbm, 151, rfl⟩
abbrev main_c_18 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_c_19 : Ref sig .tc := ⟨.hbm, 159, rfl⟩
abbrev main_v91 : Ref sig .tc := ⟨.hbm, 160, rfl⟩
abbrev main_v92 : Ref sig .tc := ⟨.hbm, 161, rfl⟩
abbrev main_c_20 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_21 : Ref sig .tc := ⟨.hbm, 170, rfl⟩
abbrev main_v100 : Ref sig .tc := ⟨.hbm, 171, rfl⟩
abbrev main_v101 : Ref sig .tc := ⟨.hbm, 172, rfl⟩
abbrev main_c_22 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_23 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_call4_cst : Ref sig .tc := ⟨.hbm, 193, rfl⟩
abbrev main_call4_v0 : Ref sig .tc := ⟨.hbm, 194, rfl⟩
abbrev main_v120 : Ref sig .tc := ⟨.hbm, 195, rfl⟩
abbrev main_cst_24 : Ref sig .tc := ⟨.hbm, 196, rfl⟩
abbrev main_v121 : Ref sig .tc := ⟨.hbm, 197, rfl⟩
abbrev main_cst_25 : Ref sig .tc := ⟨.hbm, 198, rfl⟩
abbrev main_v122 : Ref sig .tc := ⟨.hbm, 199, rfl⟩
abbrev main_v123 : Ref sig .tc := ⟨.hbm, 200, rfl⟩
abbrev main_c_26 : Ref sig .tc := ⟨.hbm, 201, rfl⟩
abbrev main_call5_cst : Ref sig .tc := ⟨.hbm, 202, rfl⟩
abbrev main_call5_v0 : Ref sig .tc := ⟨.hbm, 203, rfl⟩
abbrev main_call5_v1 : Ref sig .tc := ⟨.hbm, 204, rfl⟩
abbrev main_call5_cst_0 : Ref sig .tc := ⟨.hbm, 205, rfl⟩
abbrev main_call5_v2 : Ref sig .tc := ⟨.hbm, 206, rfl⟩
abbrev main_call5_v3 : Ref sig .tc := ⟨.hbm, 207, rfl⟩
abbrev main_call5_v4 : Ref sig .tc := ⟨.hbm, 208, rfl⟩
abbrev main_call5_v5 : Ref sig .tc := ⟨.hbm, 209, rfl⟩
abbrev main_call5_v6 : Ref sig .tc := ⟨.hbm, 210, rfl⟩
abbrev main_call5_v7 : Ref sig .tc := ⟨.hbm, 211, rfl⟩
abbrev main_call5_cst_1 : Ref sig .tc := ⟨.hbm, 212, rfl⟩
abbrev main_call5_v8 : Ref sig .tc := ⟨.hbm, 213, rfl⟩
abbrev main_call5_cst_2 : Ref sig .tc := ⟨.hbm, 214, rfl⟩
abbrev main_call5_v9 : Ref sig .tc := ⟨.hbm, 215, rfl⟩
abbrev main_call5_v10 : Ref sig .tc := ⟨.hbm, 216, rfl⟩
abbrev main_call5_v11 : Ref sig .tc := ⟨.hbm, 217, rfl⟩
abbrev main_call5_cst_3 : Ref sig .tc := ⟨.hbm, 218, rfl⟩
abbrev main_call5_v12 : Ref sig .tc := ⟨.hbm, 219, rfl⟩
abbrev main_call5_cst_4 : Ref sig .tc := ⟨.hbm, 220, rfl⟩
abbrev main_call5_call0_v0 : Ref sig .tc := ⟨.hbm, 221, rfl⟩
abbrev main_call5_call0_v1 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_cst_27 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_call6_cst : Ref sig .tc := ⟨.hbm, 244, rfl⟩
abbrev main_call6_v0 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_cst_28 : Ref sig .tc := ⟨.hbm, 251, rfl⟩
abbrev main_v149 : Ref sig .tc := ⟨.hbm, 252, rfl⟩
abbrev main_cst_29 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_cst_30 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_cst_31 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_call7_cst : Ref sig .tc := ⟨.hbm, 271, rfl⟩
abbrev main_call7_v0 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S1600000x2_S1600000x1_0_1 : S1600000x2.Slices ![0, 1] S1600000x1
  shapeCasts_S1600000x1_S1600000 : S1600000x1.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x2_S64x2_1_0_0_1_n_n_wf : DotDims.WF S64x128 S128x2 S64x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (a b : ℕ) : Type := (⟨2, ![a, b]⟩ : Shape).Idx → EReal

def mk2 {a b : ℕ} (f : Fin a → Fin b → EReal) : Mat a b := fun i => f (i 0) (i 1)
theorem mat_ext {a b : ℕ} {x y : Mat a b} (h : ∀ p q, x (ix2 p q) = y (ix2 p q)) : x = y := by
  funext j; rw [eq_ix2 j]; exact h _ _

def dot {M K C : ℕ} (x : Mat M K) (W : Mat K C) : Mat M C := mk2 fun p q => ∑ k : Fin K, x (ix2 p k) * W (ix2 k q)
def addRow {M C : ℕ} (a : Mat M C) (b : Fin C → EReal) : Mat M C := mk2 fun p q => a (ix2 p q) + b q
def relu {M C : ℕ} (a : Mat M C) : Mat M C := fun i => max (a i) 0
def colSum {M C : ℕ} (y : Mat M C) : Fin C → EReal := fun q => ∑ p : Fin M, y (ix2 p q)
def sq {M C : ℕ} (y : Mat M C) : Mat M C := fun i => y i * y i
def c1e5 : EReal := Ideal.ofBits .f32 0x47C35000#32
def eps : EReal := Ideal.ofBits .f32 0x3727C5AC#32
def mean {M C : ℕ} (y : Mat M C) : Fin C → EReal := fun q => Ideal.div (colSum y q) c1e5
def varK {M C : ℕ} (y : Mat M C) : Fin C → EReal := fun q => Ideal.div (colSum (sq y) q) c1e5 - mean y q * mean y q
def varR {M C : ℕ} (y : Mat M C) : Fin C → EReal :=
  fun q => Ideal.div (∑ p : Fin M, (y (ix2 p q) - mean y q) * (y (ix2 p q) - mean y q)) c1e5
def bn {M C : ℕ} (y : Mat M C) (mu var γ β : Fin C → EReal) : Mat M C :=
  mk2 fun p q => ((y (ix2 p q) - mu q) * Ideal.rsqrt (var q + eps)) * γ q + β q
def onehot (b : BitVec 32) (g : ℕ) : EReal := if b = BitVec.ofNat 32 g then 1 else 0
def poolSum {N C : ℕ} (G : ℕ) (h : Mat N C) (batch : Fin N → BitVec 32) : Mat G C :=
  mk2 fun g d => ∑ n : Fin N, onehot (batch n) g.val * h (ix2 n d)
def poolCnt {N : ℕ} (G : ℕ) (batch : Fin N → BitVec 32) : Fin G → EReal := fun g => ∑ n : Fin N, onehot (batch n) g.val
def reps {G C : ℕ} (s : Mat G C) (cnt : Fin G → EReal) : Mat G C := mk2 fun g d => Ideal.div (s (ix2 g d)) (max (cnt g) 1)

def IsReal {a b : ℕ} (x : Mat a b) : Prop := ∀ p q, ∃ r : ℝ, x (ix2 p q) = (r : EReal)
def IsRealF {a : ℕ} (x : Fin a → EReal) : Prop := ∀ q, ∃ r : ℝ, x q = (r : EReal)

end Cert.Spec

end
-- ==== Proof.Model.lean ====
import proofs.«407449_j27977416966480_1_alg».proof.Proof.Spec

noncomputable section

namespace Cert.Model

open Idealize.ShloMosaic Idealize.ShloMosaic.ValueIdx Cert.Spec

structure Args where
  x : Mat 100000 128
  batch : Fin 100000 → BitVec 32
  Wg0 : Mat 128 128
  bg0 : Fin 128 → EReal
  gamma0 : Fin 128 → EReal
  beta0 : Fin 128 → EReal
  Wg1 : Mat 128 128
  bg1 : Fin 128 → EReal
  gamma1 : Fin 128 → EReal
  beta1 : Fin 128 → EReal
  Wl1 : Mat 128 128
  bl1 : Fin 128 → EReal
  Wl2 : Mat 128 128
  bl2 : Fin 128 → EReal
  Wc1 : Mat 128 128
  bc1 : Fin 128 → EReal
  Wc2 : Mat 128 2
  bc2 : Fin 2 → EReal

abbrev Agg : Type := Mat 100000 128 → Mat 100000 128

def preK (G : Agg) (hin : Mat 100000 128) (W : Mat 128 128) (b : Fin 128 → EReal) : Mat 100000 128 :=
  relu (addRow (G (addRow (dot hin W) (fun _ => 0))) b)
def preR (G : Agg) (hin : Mat 100000 128) (W : Mat 128 128) (b : Fin 128 → EReal) : Mat 100000 128 :=
  relu (addRow (G (dot hin W)) b)
def layerK (G : Agg) (hin : Mat 100000 128) (W : Mat 128 128) (b γ β : Fin 128 → EReal) : Mat 100000 128 :=
  bn (preK G hin W b) (mean (preK G hin W b)) (varK (preK G hin W b)) γ β
def layerR (G : Agg) (hin : Mat 100000 128) (W : Mat 128 128) (b γ β : Fin 128 → EReal) : Mat 100000 128 :=
  bn (preR G hin W b) (mean (preR G hin W b)) (varR (preR G hin W b)) γ β
def head (h : Mat 100000 128) (a : Args) : Mat 100000 128 :=
  addRow (dot (relu (addRow (dot h a.Wl1) a.bl1)) a.Wl2) a.bl2
def pooled (h : Mat 100000 128) (a : Args) : Mat 64 128 := reps (poolSum 64 h a.batch) (poolCnt 64 a.batch)
def logits (g : Mat 64 128) (a : Args) : Mat 64 2 := addRow (dot (relu (addRow (dot g a.Wc1) a.bc1)) a.Wc2) a.bc2

def out0K (G : Agg) (a : Args) : Mat 100000 128 :=
  head (layerK G (layerK G a.x a.Wg0 a.bg0 a.gamma0 a.beta0) a.Wg1 a.bg1 a.gamma1 a.beta1) a
def out0R (G : Agg) (a : Args) : Mat 100000 128 :=
  head (layerR G (layerR G a.x a.Wg0 a.bg0 a.gamma0 a.beta0) a.Wg1 a.bg1 a.gamma1 a.beta1) a
def out1K (G : Agg) (a : Args) : Mat 64 128 := pooled (out0K G a) a
def out1R (G : Agg) (a : Args) : Mat 64 128 := pooled (out0R G a) a
def out2K (G : Agg) (a : Args) : Mat 64 2 := logits (out1K G a) a
def out2R (G : Agg) (a : Args) : Mat 64 2 := logits (out1R G a) a

structure Args.Real (a : Args) : Prop where
  x : IsReal a.x
  Wg0 : IsReal a.Wg0
  bg0 : IsRealF a.bg0
  gamma0 : IsRealF a.gamma0
  beta0 : IsRealF a.beta0
  Wg1 : IsReal a.Wg1
  bg1 : IsRealF a.bg1
  gamma1 : IsRealF a.gamma1
  beta1 : IsRealF a.beta1

end Cert.Model

end
-- ==== Proof.ArgsDefs.lean ====
import proofs.«407449_j27977416966480_1_alg».proof.KernelIdeal
import proofs.«407449_j27977416966480_1_alg».proof.ReferenceIdeal
import proofs.«407449_j27977416966480_1_alg».proof.Proof.Model

noncomputable section

open Idealize.ShloMosaic Idealize.ShloMosaic.ValueIdx Idealize.ShloMosaic.TcCoe Idealize.SL.Sem

namespace Cert.KernelIdeal.Launch

open Cert.KernelIdeal

variable (m : (ℓ : Loc nD τ sig) → Buf (Elt Ideal) ℓ) (c : Dev nD)

def args : Model.Args where
  x := m ((c.tc : Thread nD τ).loc main_arg0)
  batch := fun n => m ((c.tc : Thread nD τ).loc main_arg3) (ix1 n)
  Wg0 := m ((c.tc : Thread nD τ).loc main_arg4)
  bg0 := fun q => m ((c.tc : Thread nD τ).loc main_arg5) (ix1 q)
  gamma0 := fun q => m ((c.tc : Thread nD τ).loc main_arg6) (ix1 q)
  beta0 := fun q => m ((c.tc : Thread nD τ).loc main_arg7) (ix1 q)
  Wg1 := m ((c.tc : Thread nD τ).loc main_arg8)
  bg1 := fun q => m ((c.tc : Thread nD τ).loc main_arg9) (ix1 q)
  gamma1 := fun q => m ((c.tc : Thread nD τ).loc main_arg10) (ix1 q)
  beta1 := fun q => m ((c.tc : Thread nD τ).loc main_arg11) (ix1 q)
  Wl1 := m ((c.tc : Thread nD τ).loc main_arg12)
  bl1 := fun q => m ((c.tc : Thread nD τ).loc main_arg13) (ix1 q)
  Wl2 := m ((c.tc : Thread nD τ).loc main_arg14)
  bl2 := fun q => m ((c.tc : Thread nD τ).loc main_arg15) (ix1 q)
  Wc1 := m ((c.tc : Thread nD τ).loc main_arg16)
  bc1 := fun q => m ((c.tc : Thread nD τ).loc main_arg17) (ix1 q)
  Wc2 := m ((c.tc : Thread nD τ).loc main_arg18)
  bc2 := fun q => m ((c.tc : Thread nD τ).loc main_arg19) (ix1 q)

def ei : IVec ⟨2, ![2, 1600000]⟩ 32 := m ((c.tc : Thread nD τ).loc main_arg1)

def ea : Spec.Mat 1600000 2 := m ((c.tc : Thread nD τ).loc main_arg2)

end Cert.KernelIdeal.Launch

namespace Cert.ReferenceIdeal.Launch

open Cert.ReferenceIdeal

variable (m : (ℓ : Loc nD τ sig) → Buf (Elt Ideal) ℓ) (c : Dev nD)

def args : Model.Args where
  x := m ((c.tc : Thread nD τ).loc main_arg0)
  batch := fun n => m ((c.tc : Thread nD τ).loc main_arg3) (ix1 n)
  Wg0 := m ((c.tc : Thread nD τ).loc main_arg4)
  bg0 := fun q => m ((c.tc : Thread nD τ).loc main_arg5) (ix1 q)
  gamma0 := fun q => m ((c.tc : Thread nD τ).loc main_arg6) (ix1 q)
  beta0 := fun q => m ((c.tc : Thread nD τ).loc main_arg7) (ix1 q)
  Wg1 := m ((c.tc : Thread nD τ).loc main_arg8)
  bg1 := fun q => m ((c.tc : Thread nD τ).loc main_arg9) (ix1 q)
  gamma1 := fun q => m ((c.tc : Thread nD τ).loc main_arg10) (ix1 q)
  beta1 := fun q => m ((c.tc : Thread nD τ).loc main_arg11) (ix1 q)
  Wl1 := m ((c.tc : Thread nD τ).loc main_arg12)
  bl1 := fun q => m ((c.tc : Thread nD τ).loc main_arg13) (ix1 q)
  Wl2 := m ((c.tc : Thread nD τ).loc main_arg14)
  bl2 := fun q => m ((c.tc : Thread nD τ).loc main_arg15) (ix1 q)
  Wc1 := m ((c.tc : Thread nD τ).loc main_arg16)
  bc1 := fun q => m ((c.tc : Thread nD τ).loc main_arg17) (ix1 q)
  Wc2 := m ((c.tc : Thread nD τ).loc main_arg18)
  bc2 := fun q => m ((c.tc : Thread nD τ).loc main_arg19) (ix1 q)

def ei : IVec ⟨2, ![2, 1600000]⟩ 32 := m ((c.tc : Thread nD τ).loc main_arg1)

def ea : Spec.Mat 1600000 2 := m ((c.tc : Thread nD τ).loc main_arg2)

end Cert.ReferenceIdeal.Launch

end
-- ==== Proof.LibPlainDot.lean ====
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibTiles.lean ====
import Idealize.ShloMosaic.Lib.Pipeline.Value
import Idealize.ShloMosaic.Lib.ValueIdx

namespace Cert.LibTiles

open Idealize.ShloMosaic Idealize.ShloMosaic.ValueIdx

theorem hz : (![0, 0] : Fin 2 → ℕ) = fun _ => 0 := funext (Fin.forall_fin_two.2 ⟨rfl, rfl⟩)

-- A placement by block index and block size, at block index zero on every axis, moves nothing.
theorem whole_of_index {S : Shape} {e : S.Idx → S.Idx} {I s : Fin S.rank → ℕ}
    (h : ∀ y d, (e y d : ℕ) = I d * s d + y d) (hI : ∀ d, I d = 0) (y : S.Idx) : e y = y :=
  funext fun d => Fin.ext (by rw [h, hI, Nat.zero_mul, Nat.zero_add])

-- `e t` puts tile `t`, of `a'` rows, at rows `a' t, …` of the array and keeps columns.
def Tiles {n a' a b : ℕ} (e : Fin n → (⟨2, ![a', b]⟩ : Shape).Idx → (⟨2, ![a, b]⟩ : Shape).Idx) : Prop :=
  ∀ t y, (e t y 0 : ℕ) = a' * t + y 0 ∧ (e t y 1 : ℕ) = y 1

namespace Tiles

variable {n a' a b : ℕ} {e : Fin n → (⟨2, ![a', b]⟩ : Shape).Idx → (⟨2, ![a, b]⟩ : Shape).Idx}

-- Placements by block index `(t, 0)` and block size `(a', ·)` are such tiles.
theorem of_index {I : Fin n → Fin 2 → ℕ} {s : Fin 2 → ℕ} (h : ∀ t y d, (e t y d : ℕ) = I t d * s d + y d)
    (hs : s 0 = a') (hI : ∀ t : Fin n, I t 0 = t ∧ I t 1 = 0) : Tiles e := fun t y =>
  ⟨by rw [h, (hI t).1, hs, Nat.mul_comm], by rw [h, (hI t).2, Nat.zero_mul, Nat.zero_add]⟩

theorem apply (he : Tiles e) (t : Fin n) (p : Fin a') (q : Fin b) (r : Fin a) (hr : r.val = a' * t + p) :
    e t (ix2 p q) = ix2 r q :=
  Shape.idx_ext₂ ((he t _).1.trans hr.symm) (he t _).2

theorem col (he : Tiles e) (t : Fin n) (y : (⟨2, ![a', b]⟩ : Shape).Idx) : (e t y 1 : Fin b) = y 1 :=
  Fin.ext (he t y).2

-- Row `r` of the array is row `r % a'` of tile `r / a'`.
theorem exists_tile (he : Tiles e) {m : ℕ} (hN : n = m) (hn : a ≤ a' * m) {P : Fin n → (⟨2, ![a, b]⟩ : Shape).Idx → Prop}
    (hP : ∀ t y, P t (e t y)) (i : (⟨2, ![a, b]⟩ : Shape).Idx) : ∃ t, P t i := by
  subst hN
  have hi := idx2_lt0 i
  have ha' : 0 < a' := Nat.pos_of_ne_zero fun h => by subst h; omega
  let t : Fin n := ⟨i 0 / a', Nat.div_lt_of_lt_mul (lt_of_lt_of_le hi hn)⟩
  let y : (⟨2, ![a', b]⟩ : Shape).Idx := ix2 ⟨i 0 % a', Nat.mod_lt _ ha'⟩ ⟨i 1, idx2_lt1 i⟩
  have h : e t y = i := Shape.idx_ext₂ ((he t y).1.trans (Nat.div_add_mod _ _)) (he t y).2
  exact ⟨t, h ▸ hP t y⟩

end Tiles

end Cert.LibTiles
-- ==== Proof.RegLin.lean ====
import proofs.«407449_j27977416966480_1_alg».proof.Proof.Gen.KernelIdeal.Frame
import proofs.«407449_j27977416966480_1_alg».proof.Proof.Spec
import proofs.«407449_j27977416966480_1_alg».proof.Proof.LibPlainDot
import proofs.«407449_j27977416966480_1_alg».proof.Proof.LibTiles
import Idealize.ShloMosaic.Lib.Pipeline.Value
import Idealize.ShloMosaic.Lib.ValueLayout

set_option maxRecDepth 16384

noncomputable section

namespace Cert.KernelIdeal.RegLin

open Idealize.ShloMosaic Idealize.ShloMosaic.TcCoe Idealize.ShloMosaic.ValueIdx Cert.KernelIdeal Cert.KernelIdeal.Gen Cert.Spec Cert.LibTiles

abbrev lin {a k b : ℕ} (X : Mat a k) (W : Mat k b) (B : Mat 1 b) : Mat a b :=
  addRow (dot X W) fun q => B (ix2 0 q)

-- Entry (p, q) of the block's product plus bias is Σ_k x(p,k)·W(k,q) + b(q).
theorem lin_pay {a k b : ℕ} (d : DotDims ⟨2, ![a, k]⟩ ⟨2, ![k, b]⟩ ⟨2, ![a, b]⟩)
    (hlc : d.lhsContracting = [1]) (hrc : d.rhsContracting = [0]) (hln : d.lhsNonContracting = [0])
    (hrn : d.rhsNonContracting = [1]) (hlb : d.lhsBatch = []) (hrb : d.rhsBatch = [])
    (hb : (⟨2, ![1, b]⟩ : Shape).Broadcasts ⟨2, ![a, b]⟩)
    (x0 : Vec Ideal ⟨2, ![a, k]⟩ .f32) (x1 : Vec Ideal ⟨2, ![k, b]⟩ .f32) (x2 : Vec Ideal ⟨2, ![1, b]⟩ .f32) :
    (addf (matmul d none (truncf .bf16 x0 bitsLt_bf16_f32) (truncf .bf16 x1 bitsLt_bf16_f32) (constant _ .f32 0x00000000#32))
      (broadcastTo _ x2 hb) : FVec Ideal _ .f32) = lin x0 x1 x2 := by
  funext j
  obtain ⟨p, q, rfl⟩ : ∃ p q, j = ix2 p q := ⟨_, _, eq_ix2 j⟩
  exact congrArg₂ (· + ·) (Cert.LibPlainDot.matmul_zero_apply d hlc hrc hln hrn hlb hrb none x0 x1 p q)
    (broadcastTo_1b_ab_apply x2 hb p q)

theorem relu_pay {a b : ℕ} (v : FVec Ideal ⟨2, ![a, b]⟩ .f32) :
    maximumf v (broadcast _ (Scalar.ofBits .f32 0x00000000#32)) = relu v :=
  funext fun _ => congrArg (max _) Ideal.ofBits_zero_f32

section
variable (x0 : Vec Ideal S5000x128 .f32) (x1 : Vec Ideal S128x128 .f32) (x2 : Vec Ideal S1x128 .f32)

theorem pay0 : k0_pay1 x0 x1 x2 = lin x0 x1 x2 := by
  unfold k0_pay1
  rw [shapeCast_self]
  exact lin_pay _ rfl rfl rfl rfl rfl rfl _ x0 x1 x2

theorem pay3 : k3_pay1 x0 x1 x2 = lin x0 x1 x2 := by
  unfold k3_pay1
  rw [shapeCast_self, shapeCast_self]
  exact lin_pay _ rfl rfl rfl rfl rfl rfl _ x0 x1 x2

theorem pay6 : k6_pay1 x0 x1 x2 = relu (lin x0 x1 x2) :=
  (relu_pay _).trans (congrArg relu (pay3 x0 x1 x2))

end

theorem canon_ld {a k b : ℕ} {i0 i1 i2 i3}
    (f : Vec Ideal ⟨2, ![a, k]⟩ .f32 → Vec Ideal ⟨2, ![k, b]⟩ .f32 → Vec Ideal ⟨2, ![1, b]⟩ .f32 → Vec Ideal ⟨2, ![a, b]⟩ .f32)
    (x0 : Vec Ideal ⟨2, ![a, k]⟩ .f32) (x1 : Vec Ideal ⟨2, ![k, b]⟩ .f32) (x2 : Vec Ideal ⟨2, ![1, b]⟩ .f32) :
    View.canon (Val := Elt Ideal) (e := .f32) [⟨Rect.unit ![0, 0] ![a, b] i3,
      f (View.ld x0 (Rect.unit ![0, 0] ![a, k] i0)) (View.ld x1 (Rect.unit ![0, 0] ![k, b] i1)) (View.ld x2 (Rect.unit ![0, 0] ![1, b] i2))⟩]
      = f x0 x1 x2 := by
  rw [View.canon_unit_zero hz, View.ld_unit_zero hz, View.ld_unit_zero hz, View.ld_unit_zero hz]

abbrev RowTiled {n : ℕ} (I0 I1 I2 I3 : Fin n → Fin 2 → ℕ) : Prop :=
  ∀ t : Fin n, (I0 t 0 = t ∧ I0 t 1 = 0) ∧ (∀ d, I1 t d = 0) ∧ (∀ d, I2 t d = 0) ∧ I3 t 0 = t ∧ I3 t 1 = 0

-- Tile t of x·W + b is (tile t of x)·W + b: the layer acts on each row by itself.
theorem lin_tile (a' : ℕ) {n a k b : ℕ} (X : Mat a k) (W : Mat k b) (B : Mat 1 b)
    {e0 : Fin n → (⟨2, ![a', k]⟩ : Shape).Idx → (⟨2, ![a, k]⟩ : Shape).Idx}
    {e1 : Fin n → (⟨2, ![k, b]⟩ : Shape).Idx → (⟨2, ![k, b]⟩ : Shape).Idx}
    {e2 : Fin n → (⟨2, ![1, b]⟩ : Shape).Idx → (⟨2, ![1, b]⟩ : Shape).Idx}
    {e3 : Fin n → (⟨2, ![a', b]⟩ : Shape).Idx → (⟨2, ![a, b]⟩ : Shape).Idx}
    {I0 I1 I2 I3 : Fin n → Fin 2 → ℕ} {s0 s1 s2 s3 : Fin 2 → ℕ}
    (h0 : ∀ t y d, (e0 t y d : ℕ) = I0 t d * s0 d + y d) (h1 : ∀ t y d, (e1 t y d : ℕ) = I1 t d * s1 d + y d)
    (h2 : ∀ t y d, (e2 t y d : ℕ) = I2 t d * s2 d + y d) (h3 : ∀ t y d, (e3 t y d : ℕ) = I3 t d * s3 d + y d)
    (hs0 : s0 0 = a') (hs3 : s3 0 = a') (hI : RowTiled I0 I1 I2 I3) (t : Fin n) :
    lin (fun y => X (e0 t y)) (fun y => W (e1 t y)) (fun y => B (e2 t y)) = fun j => lin X W B (e3 t j) := by
  have T0 : Tiles e0 := .of_index h0 hs0 fun t => (hI t).1
  have T3 : Tiles e3 := .of_index h3 hs3 fun t => (hI t).2.2.2
  funext j
  show (∑ k, X (e0 t (ix2 (j 0) k)) * W (e1 t (ix2 k (j 1)))) + B (e2 t (ix2 0 (j 1)))
    = (∑ k, X (ix2 (e3 t j 0) k) * W (ix2 k (e3 t j 1))) + B (ix2 0 (e3 t j 1))
  rw [whole_of_index (h2 t) (hI t).2.2.1, T3.col]
  exact congrArg (· + _) (Finset.sum_congr rfl fun k _ => congrArg₂ (· * ·)
    (congrArg X (T0.apply t _ k _ (T3 t j).1)) (congrArg W (whole_of_index (h1 t) (hI t).2.1 _)))

variable (V : (c : Dev nD) → (b : Ref sig .tc) → Buf (Elt Ideal) ((c : Thread nD τ).loc b))

theorem idx0 : RowTiled win0_0.index win0_1.index win0_2.index win0_3.index := by decide +kernel

theorem region0 (c : Dev nD) :
    (dat0 V c).arrAt 3 cfg0.N = Spec.addRow (Spec.dot (V c main_arg0) (V c main_arg4)) (fun q => V c main_v7 (ix2 0 q)) :=
  (dat0 V c).arrAt_eq_of_cover 3 _
    (fun t _ => by
      show (dat0 V c).after 3 t = _
      rw [after0_3, out0_3, canon_ld]
      exact (pay0 _ _ _).trans (lin_tile 5000 (V c main_arg0) (V c main_arg4) (V c main_v7) win0_0.rect_emb_val
        win0_1.rect_emb_val win0_2.rect_emb_val win0_3.rect_emb_val rfl rfl idx0 t))
    ((Tiles.of_index win0_3.rect_emb_val rfl fun t => (idx0 t).2.2.2).exists_tile N_0 le_rfl fun t y =>
      ⟨flush0_3 t, View.emb_mem_set _ y⟩)

theorem idx3 : RowTiled win3_0.index win3_1.index win3_2.index win3_3.index := by decide +kernel

theorem region3 (c : Dev nD) :
    (dat3 V c).arrAt 3 cfg3.N = Spec.addRow (Spec.dot (V c main_v62) (V c main_arg8)) (fun q => V c main_v64 (ix2 0 q)) :=
  (dat3 V c).arrAt_eq_of_cover 3 _
    (fun t _ => by
      show (dat3 V c).after 3 t = _
      rw [after3_3, out3_3, canon_ld]
      exact (pay3 _ _ _).trans (lin_tile 5000 (V c main_v62) (V c main_arg8) (V c main_v64) win3_0.rect_emb_val
        win3_1.rect_emb_val win3_2.rect_emb_val win3_3.rect_emb_val rfl rfl idx3 t))
    ((Tiles.of_index win3_3.rect_emb_val rfl fun t => (idx3 t).2.2.2).exists_tile N_3 le_rfl fun t y =>
      ⟨flush3_3 t, View.emb_mem_set _ y⟩)

theorem idx7 : RowTiled win7_0.index win7_1.index win7_2.index win7_3.index := by decide +kernel

theorem region7 (c : Dev nD) :
    (dat7 V c).arrAt 3 cfg7.N = Spec.addRow (Spec.dot (V c main_v121) (V c main_arg14)) (fun q => V c main_v122 (ix2 0 q)) :=
  (dat7 V c).arrAt_eq_of_cover 3 _
    (fun t _ => by
      show (dat7 V c).after 3 t = _
      rw [after7_3, out7_3, canon_ld]
      exact (pay3 _ _ _).trans (lin_tile 5000 (V c main_v121) (V c main_arg14) (V c main_v122) win7_0.rect_emb_val
        win7_1.rect_emb_val win7_2.rect_emb_val win7_3.rect_emb_val rfl rfl idx7 t))
    ((Tiles.of_index win7_3.rect_emb_val rfl fun t => (idx7 t).2.2.2).exists_tile N_7 le_rfl fun t y =>
      ⟨flush7_3 t, View.emb_mem_set _ y⟩)

theorem idx6 : RowTiled win6_0.index win6_1.index win6_2.index win6_3.index := by decide +kernel

theorem region6 (c : Dev nD) :
    (dat6 V c).arrAt 3 cfg6.N = Spec.relu (Spec.addRow (Spec.dot (V c main_v119) (V c main_arg12)) (fun q => V c main_v120 (ix2 0 q))) :=
  (dat6 V c).arrAt_eq_of_cover 3 _
    (fun t _ => by
      show (dat6 V c).after 3 t = _
      rw [after6_3, out6_3, canon_ld]
      exact (pay6 _ _ _).trans (congrArg relu (lin_tile 5000 (V c main_v119) (V c main_arg12) (V c main_v120) win6_0.rect_emb_val
        win6_1.rect_emb_val win6_2.rect_emb_val win6_3.rect_emb_val rfl rfl idx6 t)))
    ((Tiles.of_index win6_3.rect_emb_val rfl fun t => (idx6 t).2.2.2).exists_tile N_6 le_rfl fun t y =>
      ⟨flush6_3 t, View.emb_mem_set _ y⟩)

end Cert.KernelIdeal.RegLin

end
-- ==== Proof.RegLinSmall.lean ====
import proofs.«407449_j27977416966480_1_alg».proof.Proof.Gen.KernelIdeal.Frame
import proofs.«407449_j27977416966480_1_alg».proof.Proof.Spec
import proofs.«407449_j27977416966480_1_alg».proof.Proof.LibPlainDot
import proofs.«407449_j27977416966480_1_alg».proof.Proof.RegLin
import Idealize.ShloMosaic.Lib.ValueLayout

set_option maxRecDepth 16384

noncomputable section

namespace Cert.KernelIdeal.RegLinSmall

open Idealize.ShloMosaic Idealize.ShloMosaic.ValueIdx Cert.KernelIdeal Cert.KernelIdeal.Gen Cert.Spec Cert.KernelIdeal.RegLin Cert.LibTiles
open Idealize.ShloMosaic.TcCoe

theorem pay9 (x0 : Vec Ideal S64x128 .f32) (x1 : Vec Ideal S128x128 .f32) (x2 : Vec Ideal S1x128 .f32) :
    k9_pay1 x0 x1 x2 = relu (lin x0 x1 x2) := by
  unfold k9_pay1
  rw [shapeCast_self, shapeCast_self]
  refine (relu_pay _).trans (congrArg relu ?_)
  exact lin_pay _ rfl rfl rfl rfl rfl rfl _ x0 x1 x2

theorem pay10 (x0 : Vec Ideal S64x128 .f32) (x1 : Vec Ideal S128x2 .f32) (x2 : Vec Ideal S1x2 .f32) :
    k10_pay1 x0 x1 x2 = lin x0 x1 x2 := by
  unfold k10_pay1
  rw [shapeCast_self, shapeCast_self]
  exact lin_pay _ rfl rfl rfl rfl rfl rfl _ x0 x1 x2

variable (V : (c : Dev nD) → (b : Ref sig .tc) → Buf (Elt Ideal) ((c : Thread nD τ).loc b))

theorem idx9 : RowTiled win9_0.index win9_1.index win9_2.index win9_3.index := by decide +kernel

theorem region9 (c : Dev nD) : (dat9 V c).arrAt 3 cfg9.N
    = Spec.relu (Spec.addRow (Spec.dot (V c main_v130 : Mat 64 128) (V c main_arg16 : Mat 128 128)) (fun q => (V c main_v131 : Mat 1 128) (ix2 0 q))) :=
  (dat9 V c).arrAt_eq_of_cover 3 _
    (fun t _ => by
      show (dat9 V c).after 3 t = _
      rw [after9_3, out9_3, canon_ld]
      exact (pay9 _ _ _).trans (congrArg relu (lin_tile 64 (V c main_v130) (V c main_arg16) (V c main_v131) win9_0.rect_emb_val
        win9_1.rect_emb_val win9_2.rect_emb_val win9_3.rect_emb_val rfl rfl idx9 t)))
    ((Tiles.of_index win9_3.rect_emb_val rfl fun t => (idx9 t).2.2.2).exists_tile N_9 le_rfl fun t y =>
      ⟨flush9_3 t, View.emb_mem_set _ y⟩)

theorem idx10 : RowTiled win10_0.index win10_1.index win10_2.index win10_3.index := by decide +kernel

theorem region10 (c : Dev nD) : (dat10 V c).arrAt 3 cfg10.N
    = Spec.addRow (Spec.dot (V c main_v132 : Mat 64 128) (V c main_arg18 : Mat 128 2)) (fun q => (V c main_v133 : Mat 1 2) (ix2 0 q)) :=
  (dat10 V c).arrAt_eq_of_cover 3 _
    (fun t _ => by
      show (dat10 V c).after 3 t = _
      rw [after10_3, out10_3, canon_ld]
      exact (pay10 _ _ _).trans (lin_tile 64 (V c main_v132) (V c main_arg18) (V c main_v133) win10_0.rect_emb_val
        win10_1.rect_emb_val win10_2.rect_emb_val win10_3.rect_emb_val rfl rfl idx10 t))
    ((Tiles.of_index win10_3.rect_emb_val rfl fun t => (idx10 t).2.2.2).exists_tile N_10 le_rfl fun t y =>
      ⟨flush10_3 t, View.emb_mem_set _ y⟩)

end Cert.KernelIdeal.RegLinSmall

end
-- ==== Proof.LibBlockSum.lean ====
import Mathlib.Algebra.BigOperators.Fin
import Mathlib.Data.Fintype.BigOperators
import Mathlib.Logic.Equiv.Fin.Basic

namespace Cert.BlockSum

open scoped BigOperators

theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- Every index below `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

end Cert.BlockSum
-- ==== Proof.RegFinalize.lean ====
import proofs.«407449_j27977416966480_1_alg».proof.Proof.Gen.KernelIdeal.Frame
import proofs.«407449_j27977416966480_1_alg».proof.Proof.Spec
import proofs.«407449_j27977416966480_1_alg».proof.Proof.LibBlockSum
import Idealize.ShloMosaic.PureOps.Ideal.Laws
import Idealize.ShloMosaic.Lib.Pipeline.Value
import Idealize.ShloMosaic.Lib.ValueLayout
import Idealize.ShloMosaic.Lib.Tactic

set_option maxRecDepth 16384

noncomputable section

namespace Cert.KernelIdeal.RegFinalize

open Idealize.ShloMosaic Idealize.ShloMosaic.ValueIdx Cert.KernelIdeal Cert.KernelIdeal.Gen Cert.Spec
open Idealize.ShloMosaic.TcCoe Idealize.SL.Sem
open Idealize.ShloMosaic.Pipeline (Dat)
open scoped BigOperators

theorem hz : (![0, 0] : Fin 2 → Nat) = fun _ => 0 := funext fun a => by fin_cases a <;> rfl

theorem lift_eq (q : Fin 128) (k : Fin 5000) : reduces_S5000x128_S128.lift (ix1 q) k = ix2 k q := by
  funext a; apply Fin.ext
  match a with
  | ⟨0, _⟩ => rfl
  | ⟨1, _⟩ => rfl

theorem laneSum_apply (src : FVec Ideal S5000x128 .f32) (q : Fin 128) :
    multiReduction (F := Ideal) .add [0] S128 src 0x00000000#32 reduces_S5000x128_S128 (.inl rfl) rfl (ix1 q)
      = ∑ k : Fin 5000, src (ix2 k q) := by
  refine (Ideal.multiReduction_add_single src 0x00000000#32 reduces_S5000x128_S128 (.inl rfl) rfl (ix1 q)).trans ?_
  exact Finset.sum_congr rfl fun k _ => congrArg src (lift_eq q k)

-- The column sums of the b-th block of 5000 rows, zero past the twenty blocks.
def tileSum (M : Mat 100000 128) (b : ℕ) (q : Fin 128) : EReal :=
  if hb : b < 20 then ∑ k : Fin 5000, M (ix2 ⟨5000 * b + k.val, by have := k.isLt; omega⟩ q) else 0

theorem sum_tileSum (M : Mat 100000 128) (q : Fin 128) :
    ∑ b ∈ Finset.range (19 + 1), tileSum M b q = Spec.colSum M q := by
  rw [Finset.sum_range]
  refine (Finset.sum_congr rfl fun b _ => ?_).trans (Cert.BlockSum.sum_blocks 20 5000 (fun n : Fin (20 * 5000) => M (ix2 n q)))
  unfold tileSum
  rw [dif_pos b.isLt]

-- The features plus the bias row, clipped at zero.
abbrev yOf (X : Mat 100000 128) (B : Mat 1 128) : Mat 100000 128 := Spec.relu (Spec.addRow X fun q => B (ix2 0 q))

theorem k1_pay3_apply (v3 : FVec Ideal S5000x128 .f32) (v5 : FVec Ideal S1x128 .f32) (p : Fin 5000) (q : Fin 128) :
    k1_pay3 (F := Ideal) v3 v5 (ix2 p q) = max (v3 (ix2 p q) + v5 (ix2 (0 : Fin 1) q)) 0 := by
  unfold k1_pay3
  refine (maximumf_apply _ _ _).trans ?_
  refine congrArg₂ max ?_ Ideal.ofBits_zero_f32
  refine (addf_apply _ _ _).trans ?_
  refine congrArg₂ (· + ·) (congrFun (shapeCast_self v3 _) _) ?_
  refine (broadcastTo_1b_ab_apply _ _ p q).trans ?_
  exact congrFun (shapeCast_self v5 _) _

theorem k1_pay4_apply (v3 : FVec Ideal S5000x128 .f32) (v5 v12 : FVec Ideal S1x128 .f32) (u : Fin 1) (q : Fin 128) :
    k1_pay4 (F := Ideal) v3 v5 v12 (ix2 u q) = v12 (ix2 u q) + ∑ k : Fin 5000, k1_pay3 (F := Ideal) v3 v5 (ix2 k q) := by
  unfold k1_pay4
  refine (addf_apply _ _ _).trans ?_
  refine congrArg₂ (· + ·) (congrFun (shapeCast_self v12 _) _) ?_
  refine (shapeCast_a_1a_apply _ _ u q).trans ?_
  exact laneSum_apply _ q

theorem k1_pay5_apply (v3 : FVec Ideal S5000x128 .f32) (v5 v18 : FVec Ideal S1x128 .f32) (u : Fin 1) (q : Fin 128) :
    k1_pay5 (F := Ideal) v3 v5 v18 (ix2 u q)
      = v18 (ix2 u q) + ∑ k : Fin 5000, k1_pay3 (F := Ideal) v3 v5 (ix2 k q) * k1_pay3 (F := Ideal) v3 v5 (ix2 k q) := by
  unfold k1_pay5
  refine (addf_apply _ _ _).trans ?_
  refine congrArg₂ (· + ·) (congrFun (shapeCast_self v18 _) _) ?_
  refine (shapeCast_a_1a_apply _ _ u q).trans ?_
  exact laneSum_apply _ q

theorem k1_pay1_apply (u : Fin 1) (q : Fin 128) : k1_pay1 (F := Ideal) (ix2 u q) = 0 := Ideal.ofBits_zero_f32
theorem k1_pay2_apply (u : Fin 1) (q : Fin 128) : k1_pay2 (F := Ideal) (ix2 u q) = 0 := Ideal.ofBits_zero_f32

-- A block at index zero on every axis, of the array's own size, holds every index.
theorem mem_rect_zero {G : Pipeline.Grid} (w : Pipeline.Window sig G) (t : Fin G.N) (h : ∀ a, w.index t a = 0)
    (hs : ∀ a, w.xsize (G.coords t) a = w.shape.size a) (i : w.shape.Idx) : i ∈ (w.rect t).set :=
  Rect.mem_set_unit.mpr fun a => by
    show w.index t a * w.size a ≤ (i a).val ∧ (i a).val < w.index t a * w.size a + w.xsize (G.coords t) a
    rw [h a, hs a]
    exact ⟨by omega, by have := (i a).isLt; omega⟩

-- Twenty steps: the first resets both accumulators, each later one adds block t's column sums of y and of y² to what the step before left.
structure Acc {N : ℕ} (o : (n : ℕ) → n < N → Vec Ideal S5000x128 .f32 × Vec Ideal S1x128 .f32 × Vec Ideal S1x128 .f32)
    (x : Fin N → FVec Ideal S5000x128 .f32) (b : Fin N → FVec Ideal S1x128 .f32) (X : Mat 100000 128) (B : Mat 1 128) : Prop where
  hN : N = 20
  hA : ∀ t : Fin N, t.val % 20 = 0 → o t.val t.isLt
    = (k1_pay3 (F := Ideal) (x t) (b t), k1_pay4 (F := Ideal) (x t) (b t) (k1_pay1 (F := Ideal)), k1_pay5 (F := Ideal) (x t) (b t) (k1_pay2 (F := Ideal)))
  hB : ∀ t : Fin N, ¬t.val % 20 = 0 → o t.val t.isLt
    = (k1_pay3 (F := Ideal) (x t) (b t), k1_pay4 (F := Ideal) (x t) (b t) (o (t.val - 1) (Nat.lt_of_le_of_lt (Nat.sub_le _ _) t.isLt)).2.1,
       k1_pay5 (F := Ideal) (x t) (b t) (o (t.val - 1) (Nat.lt_of_le_of_lt (Nat.sub_le _ _) t.isLt)).2.2)
  hx : ∀ (t : Fin N) (k : Fin 5000) (q : Fin 128) (h : 5000 * t.val + k.val < 100000), x t (ix2 k q) = X (ix2 ⟨5000 * t.val + k.val, h⟩ q)
  hb : ∀ (t : Fin N) (q : Fin 128), b t (ix2 (0 : Fin 1) q) = B (ix2 (0 : Fin 1) q)

namespace Acc

variable {N : ℕ} {o : (n : ℕ) → n < N → Vec Ideal S5000x128 .f32 × Vec Ideal S1x128 .f32 × Vec Ideal S1x128 .f32}
  {x : Fin N → FVec Ideal S5000x128 .f32} {b : Fin N → FVec Ideal S1x128 .f32} {X : Mat 100000 128} {B : Mat 1 128}
  (H : Acc o x b X B)
include H

theorem y (t : Fin N) : (o t.val t.isLt).1 = k1_pay3 (F := Ideal) (x t) (b t) := by
  by_cases h0 : t.val % 20 = 0
  · rw [H.hA t h0]
  · rw [H.hB t h0]

theorem pay3 (t : Fin N) (k : Fin 5000) (q : Fin 128) (h : 5000 * t.val + k.val < 100000) :
    k1_pay3 (F := Ideal) (x t) (b t) (ix2 k q) = yOf X B (ix2 ⟨5000 * t.val + k.val, h⟩ q) := by
  rw [k1_pay3_apply, H.hx t k q h, H.hb t q]
  rfl

theorem tile (f : EReal → EReal) (t : Fin N) (q : Fin 128) :
    ∑ k : Fin 5000, f (k1_pay3 (F := Ideal) (x t) (b t) (ix2 k q)) = tileSum (fun i => f (yOf X B i)) t.val q := by
  unfold tileSum
  rw [dif_pos (lt_of_lt_of_eq t.isLt H.hN)]
  exact Finset.sum_congr rfl fun k _ => congrArg f (H.pay3 t k q _)

theorem s (u : Fin 1) (q : Fin 128) : ∀ (n : ℕ) (hn : n < N),
    ((o n hn).2.1 : FVec Ideal S1x128 .f32) (ix2 u q) = ∑ j ∈ Finset.range (n + 1), tileSum (yOf X B) j q
  | 0, hn => by
    rw [H.hA ⟨0, hn⟩ rfl]; dsimp only
    rw [k1_pay4_apply, k1_pay1_apply, zero_add, Finset.sum_range_one]
    exact H.tile (fun v => v) ⟨0, hn⟩ q
  | n + 1, hn => by
    have hN := H.hN
    rw [H.hB ⟨n + 1, hn⟩ (by dsimp only; omega)]; dsimp only
    rw [k1_pay4_apply, Finset.sum_range_succ _ (n + 1)]
    exact congrArg₂ (· + ·) (s u q n (Nat.lt_of_succ_lt hn)) (H.tile (fun v => v) ⟨n + 1, hn⟩ q)

theorem sq (u : Fin 1) (q : Fin 128) : ∀ (n : ℕ) (hn : n < N),
    ((o n hn).2.2 : FVec Ideal S1x128 .f32) (ix2 u q) = ∑ j ∈ Finset.range (n + 1), tileSum (Spec.sq (yOf X B)) j q
  | 0, hn => by
    rw [H.hA ⟨0, hn⟩ rfl]; dsimp only
    rw [k1_pay5_apply, k1_pay2_apply, zero_add, Finset.sum_range_one]
    exact H.tile (fun v => v * v) ⟨0, hn⟩ q
  | n + 1, hn => by
    have hN := H.hN
    rw [H.hB ⟨n + 1, hn⟩ (by dsimp only; omega)]; dsimp only
    rw [k1_pay5_apply, Finset.sum_range_succ _ (n + 1)]
    exact congrArg₂ (· + ·) (sq u q n (Nat.lt_of_succ_lt hn)) (H.tile (fun v => v * v) ⟨n + 1, hn⟩ q)

theorem s_last (t : Fin N) (h : t.val % 20 = 19) (u : Fin 1) (q : Fin 128) :
    ((o t.val t.isLt).2.1 : FVec Ideal S1x128 .f32) (ix2 u q) = Spec.colSum (yOf X B) q := by
  have h19 : t.val = 19 := by have := t.isLt; have := H.hN; omega
  rw [H.s u q, h19, sum_tileSum]

theorem sq_last (t : Fin N) (h : t.val % 20 = 19) (u : Fin 1) (q : Fin 128) :
    ((o t.val t.isLt).2.2 : FVec Ideal S1x128 .f32) (ix2 u q) = Spec.colSum (Spec.sq (yOf X B)) q := by
  have h19 : t.val = 19 := by have := t.isLt; have := H.hN; omega
  rw [H.sq u q, h19, sum_tileSum]

end Acc

section Pieces
variable {F : FTy → Type} [FloatOps F] (c : Dev nD) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (x0 : Vec F S5000x128 .f32) (x1 : Vec F S1x128 .f32) (xo3 xo4 : Vec F S1x128 .f32)

theorem out1_A_eq (i : grid1.Coords) (hc : cond1_0 i) :
    (out1_A_2 c i a1 h1 a2 h2 a3 h3 a4 h4 a5 h5 hc x0 x1, out1_A_3 c i a1 h1 a2 h2 a3 h3 a4 h4 a5 h5 hc x0 x1, out1_A_4 c i a1 h1 a2 h2 a3 h3 a4 h4 a5 h5 hc x0 x1)
      = (k1_pay3 x0 x1, k1_pay4 x0 x1 (k1_pay1 (F := F)), k1_pay5 x0 x1 (k1_pay2 (F := F))) := by
  unfold out1_A_2 out1_A_3 out1_A_4
  rw [View.read_writes_eq_canon _ _ _ (cover1_A_2 c i a1 h1 a2 h2 a3 h3 a4 h4 a5 h5 hc x0 x1), View.read_writes_eq_canon _ _ _ (cover1_A_3 c i a1 h1 a2 h2 a3 h3 a4 h4 a5 h5 hc x0 x1),
    View.read_writes_eq_canon _ _ _ (cover1_A_4 c i a1 h1 a2 h2 a3 h3 a4 h4 a5 h5 hc x0 x1)]
  unfold kernelRun1_A
  dsimp only
  sl_unfold_words
  simp only [View.canon_unit_zero (S := S5000x128) hz, View.canon_cons_unit_zero (S := S1x128) hz, View.readCov_unit_zero (S := S1x128) _ hz,
    View.readAt_eq_ld, h1.read_unread, h2.read_unread, h4.read_unread, h5.read_unread,
    View.ld_unit_zero (S := S5000x128) hz, View.ld_unit_zero (S := S1x128) hz]

theorem out1_B_eq (i : grid1.Coords) (hc : ¬cond1_0 i) :
    (out1_B_2 c i a1 h1 a2 h2 a3 h3 a4 h4 a5 h5 hc x0 x1 xo3 xo4, out1_B_3 c i a1 h1 a2 h2 a3 h3 a4 h4 a5 h5 hc x0 x1 xo3 xo4, out1_B_4 c i a1 h1 a2 h2 a3 h3 a4 h4 a5 h5 hc x0 x1 xo3 xo4)
      = (k1_pay3 x0 x1, k1_pay4 x0 x1 xo3, k1_pay5 x0 x1 xo4) := by
  unfold out1_B_2 out1_B_3 out1_B_4
  rw [View.read_writes_eq_canon _ _ _ (cover1_B_2 c i a1 h1 a2 h2 a3 h3 a4 h4 a5 h5 hc x0 x1 xo3 xo4), View.read_writes_eq_canon _ _ _ (cover1_B_3 c i a1 h1 a2 h2 a3 h3 a4 h4 a5 h5 hc x0 x1 xo3 xo4),
    View.read_writes_eq_canon _ _ _ (cover1_B_4 c i a1 h1 a2 h2 a3 h3 a4 h4 a5 h5 hc x0 x1 xo3 xo4)]
  unfold kernelRun1_B
  dsimp only
  sl_unfold_words
  simp only [View.canon_unit_zero (S := S5000x128) hz, View.canon_unit_zero (S := S1x128) hz, View.readAt_eq_ld,
    h1.read_unread, h2.read_unread, h4.read_unread, h5.read_unread,
    View.ld_unit_zero (S := S5000x128) hz, View.ld_unit_zero (S := S1x128) hz]

theorem out4_A_eq (i : grid4.Coords) (hc : cond4_0 i) :
    (out4_A_2 c i a1 h1 a2 h2 a3 h3 a4 h4 a5 h5 hc x0 x1, out4_A_3 c i a1 h1 a2 h2 a3 h3 a4 h4 a5 h5 hc x0 x1, out4_A_4 c i a1 h1 a2 h2 a3 h3 a4 h4 a5 h5 hc x0 x1)
      = (k4_pay3 x0 x1, k4_pay4 x0 x1 (k4_pay1 (F := F)), k4_pay5 x0 x1 (k4_pay2 (F := F))) := by
  unfold out4_A_2 out4_A_3 out4_A_4
  rw [View.read_writes_eq_canon _ _ _ (cover4_A_2 c i a1 h1 a2 h2 a3 h3 a4 h4 a5 h5 hc x0 x1), View.read_writes_eq_canon _ _ _ (cover4_A_3 c i a1 h1 a2 h2 a3 h3 a4 h4 a5 h5 hc x0 x1),
    View.read_writes_eq_canon _ _ _ (cover4_A_4 c i a1 h1 a2 h2 a3 h3 a4 h4 a5 h5 hc x0 x1)]
  unfold kernelRun4_A
  dsimp only
  sl_unfold_words
  simp only [View.canon_unit_zero (S := S5000x128) hz, View.canon_cons_unit_zero (S := S1x128) hz, View.readCov_unit_zero (S := S1x128) _ hz,
    View.readAt_eq_ld, h1.read_unread, h2.read_unread, h4.read_unread, h5.read_unread,
    View.ld_unit_zero (S := S5000x128) hz, View.ld_unit_zero (S := S1x128) hz]

theorem out4_B_eq (i : grid4.Coords) (hc : ¬cond4_0 i) :
    (out4_B_2 c i a1 h1 a2 h2 a3 h3 a4 h4 a5 h5 hc x0 x1 xo3 xo4, out4_B_3 c i a1 h1 a2 h2 a3 h3 a4 h4 a5 h5 hc x0 x1 xo3 xo4, out4_B_4 c i a1 h1 a2 h2 a3 h3 a4 h4 a5 h5 hc x0 x1 xo3 xo4)
      = (k4_pay3 x0 x1, k4_pay4 x0 x1 xo3, k4_pay5 x0 x1 xo4) := by
  unfold out4_B_2 out4_B_3 out4_B_4
  rw [View.read_writes_eq_canon _ _ _ (cover4_B_2 c i a1 h1 a2 h2 a3 h3 a4 h4 a5 h5 hc x0 x1 xo3 xo4), View.read_writes_eq_canon _ _ _ (cover4_B_3 c i a1 h1 a2 h2 a3 h3 a4 h4 a5 h5 hc x0 x1 xo3 xo4),
    View.read_writes_eq_canon _ _ _ (cover4_B_4 c i a1 h1 a2 h2 a3 h3 a4 h4 a5 h5 hc x0 x1 xo3 xo4)]
  unfold kernelRun4_B
  dsimp only
  sl_unfold_words
  simp only [View.canon_unit_zero (S := S5000x128) hz, View.canon_unit_zero (S := S1x128) hz, View.readAt_eq_ld,
    h1.read_unread, h2.read_unread, h4.read_unread, h5.read_unread,
    View.ld_unit_zero (S := S5000x128) hz, View.ld_unit_zero (S := S1x128) hz]

end Pieces

section Region1
variable (V : (c : Dev nD) → (b : Ref sig .tc) → Buf (Elt Ideal) ((c : Thread nD τ).loc b))

abbrev xblk1 (c : Dev nD) (t : Fin cfg1.N) : FVec Ideal S5000x128 .f32 := iblk1 V c 0 t
abbrev bblk1 (c : Dev nD) (t : Fin cfg1.N) : FVec Ideal S1x128 .f32 := iblk1 V c 1 t
abbrev Y1 (c : Dev nD) : Mat 100000 128 := yOf (V c main_v51) (V c main_v52)

theorem idx_facts1 : ∀ t : Fin cfg1.N, (win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)
    ∧ ∀ a : Fin 2, win1_3.index t a = 0 ∧ win1_4.index t a = 0 :=
  (by decide +kernel : ∀ t : Fin grid1.N, _)

theorem xblk1_apply (c : Dev nD) (t : Fin cfg1.N) (k : Fin 5000) (q : Fin 128) (h : 5000 * t.val + k.val < 100000) :
    xblk1 V c t (ix2 k q) = V c main_v51 (ix2 ⟨5000 * t.val + k.val, h⟩ q) := by
  obtain ⟨⟨e0, e1, -⟩, -⟩ := idx_facts1 t
  show V c main_v51 (((cfg1.win 0).blk t).view.emb (ix2 k q)) = V c main_v51 (ix2 ⟨5000 * t.val + k.val, h⟩ q)
  refine congrArg (V c main_v51) (funext fun a => Fin.ext ?_)
  match a with
  | ⟨0, _⟩ => show win1_0.index t (0 : Fin 2) * 5000 + 1 * k.val = 5000 * t.val + k.val; omega
  | ⟨1, _⟩ => show win1_0.index t (1 : Fin 2) * 128 + 1 * q.val = q.val; omega

theorem bblk1_apply (c : Dev nD) (t : Fin cfg1.N) (q : Fin 128) :
    bblk1 V c t (ix2 (0 : Fin 1) q) = V c main_v52 (ix2 (0 : Fin 1) q) := by
  obtain ⟨⟨-, -, e0, e1, -⟩, -⟩ := idx_facts1 t
  show V c main_v52 (((cfg1.win 1).blk t).view.emb (ix2 (0 : Fin 1) q)) = V c main_v52 (ix2 (0 : Fin 1) q)
  refine congrArg (V c main_v52) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

theorem acc1 (c : Dev nD) : Acc (outsAt1 V c) (xblk1 V c) (bblk1 V c) (V c main_v51) (V c main_v52) where
  hN := N_1
  hA t h0 := (outsAt1_A V c t h0).trans (out1_A_eq _ _ _ _ _ _ _ _ _ _ _ _ _ _ _)
  hB t h0 := (outsAt1_B V c t h0).trans (out1_B_eq _ _ _ _ _ _ _ _ _ _ _ _ _ _ _ _ _)
  hx := xblk1_apply V c
  hb := bblk1_apply V c

theorem region1_y (c : Dev nD) : (dat1 V c).arrAt 2 cfg1.N = Spec.relu (Spec.addRow (V c main_v51) (fun q => V c main_v52 (ix2 0 q))) :=
  (dat1 V c).arrAt_eq_of_cover 2 (Y1 V c) (fun t _ => by
    show (cfg1.win 2).cut (grid1.coords t) ((dat1 V c).after 2 t) = _
    rw [after1_2, (acc1 V c).y]
    obtain ⟨⟨-, -, -, -, e0, e1⟩, -⟩ := idx_facts1 t
    have ht : t.val < 20 := lt_of_lt_of_eq t.isLt N_1
    funext j
    obtain ⟨p, q, rfl⟩ : ∃ (p : Fin 5000) (q : Fin 128), j = ix2 p q := ⟨j 0, j 1, eq_ix2 j⟩
    refine ((acc1 V c).pay3 t p q (by have := p.isLt; omega)).trans ?_
    show Y1 V c _ = Y1 V c (((cfg1.win 2).blk t).view.emb (ix2 p q))
    refine congrArg (Y1 V c) (funext fun a => Fin.ext ?_)
    match a with
    | ⟨0, _⟩ => show 5000 * t.val + p.val = win1_2.index t (0 : Fin 2) * 5000 + 1 * p.val; omega
    | ⟨1, _⟩ => show q.val = win1_2.index t (1 : Fin 2) * 128 + 1 * q.val; omega) fun (i : S100000x128.Idx) => by
    have hi0 : (i 0).val < 100000 := (i 0).isLt
    have hi1 : (i 1).val < 128 := (i 1).isLt
    obtain ⟨t, ht⟩ : ∃ t : Fin cfg1.N, t.val = (i 0).val / 5000 := ⟨⟨(i 0).val / 5000, lt_of_lt_of_eq (by omega) N_1.symm⟩, rfl⟩
    obtain ⟨⟨-, -, -, -, e0, e1⟩, -⟩ := idx_facts1 t
    refine ⟨t, flush1_2 t, ?_⟩
    show i ∈ ((View.whole main_v53_0).slice (win1_2.rect t)).set
    rw [View.set_slice_whole, Rect.mem_set_unit]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega

theorem region1_s (c : Dev nD) : (dat1 V c).arrAt 3 cfg1.N
    = Spec.mk2 (fun (_ : Fin 1) q => Spec.colSum (Spec.relu (Spec.addRow (V c main_v51) (fun q => V c main_v52 (ix2 0 q)))) q) :=
  (dat1 V c).arrAt_eq_of_cover 3 _ (fun t hf => by
    have e1 := ((idx_facts1 t).2 1).1
    show (cfg1.win 3).cut (grid1.coords t) ((dat1 V c).after 3 t) = _
    rw [after1_3]
    funext j
    obtain ⟨u, q, rfl⟩ : ∃ (u : Fin 1) (q : Fin 128), j = ix2 u q := ⟨j 0, j 1, eq_ix2 j⟩
    refine ((acc1 V c).s_last t ((flush1_3 t).mp hf) u q).trans ?_
    generalize Spec.colSum (Y1 V c) = f
    show f q = Spec.mk2 (fun (_ : Fin 1) q => f q) (((cfg1.win 3).blk t).view.emb (ix2 u q))
    refine congrArg f (Fin.ext ?_)
    show q.val = win1_3.index t (1 : Fin 2) * 128 + 1 * q.val
    omega) fun (i : S1x128.Idx) => by
    obtain ⟨t, ht⟩ : ∃ t : Fin cfg1.N, t.val = 19 := ⟨⟨19, lt_of_lt_of_eq (by omega) N_1.symm⟩, rfl⟩
    refine ⟨t, (flush1_3 t).mpr (by omega), ?_⟩
    show i ∈ ((View.whole main_v53_1).slice (win1_3.rect t)).set
    rw [View.set_slice_whole]
    exact mem_rect_zero win1_3 t (fun a => ((idx_facts1 t).2 a).1) (fun _ => rfl) i

theorem region1_sq (c : Dev nD) : (dat1 V c).arrAt 4 cfg1.N
    = Spec.mk2 (fun (_ : Fin 1) q => Spec.colSum (Spec.sq (Spec.relu (Spec.addRow (V c main_v51) (fun q => V c main_v52 (ix2 0 q))))) q) :=
  (dat1 V c).arrAt_eq_of_cover 4 _ (fun t hf => by
    have e1 := ((idx_facts1 t).2 1).2
    show (cfg1.win 4).cut (grid1.coords t) ((dat1 V c).after 4 t) = _
    rw [after1_4]
    funext j
    obtain ⟨u, q, rfl⟩ : ∃ (u : Fin 1) (q : Fin 128), j = ix2 u q := ⟨j 0, j 1, eq_ix2 j⟩
    refine ((acc1 V c).sq_last t ((flush1_4 t).mp hf) u q).trans ?_
    generalize Spec.colSum (Spec.sq (Y1 V c)) = f
    show f q = Spec.mk2 (fun (_ : Fin 1) q => f q) (((cfg1.win 4).blk t).view.emb (ix2 u q))
    refine congrArg f (Fin.ext ?_)
    show q.val = win1_4.index t (1 : Fin 2) * 128 + 1 * q.val
    omega) fun (i : S1x128.Idx) => by
    obtain ⟨t, ht⟩ : ∃ t : Fin cfg1.N, t.val = 19 := ⟨⟨19, lt_of_lt_of_eq (by omega) N_1.symm⟩, rfl⟩
    refine ⟨t, (flush1_4 t).mpr (by omega), ?_⟩
    show i ∈ ((View.whole main_v53_2).slice (win1_4.rect t)).set
    rw [View.set_slice_whole]
    exact mem_rect_zero win1_4 t (fun a => ((idx_facts1 t).2 a).2) (fun _ => rfl) i

end Region1

section Region4
variable (V : (c : Dev nD) → (b : Ref sig .tc) → Buf (Elt Ideal) ((c : Thread nD τ).loc b))

abbrev xblk4 (c : Dev nD) (t : Fin cfg4.N) : FVec Ideal S5000x128 .f32 := iblk4 V c 0 t
abbrev bblk4 (c : Dev nD) (t : Fin cfg4.N) : FVec Ideal S1x128 .f32 := iblk4 V c 1 t
abbrev Y4 (c : Dev nD) : Mat 100000 128 := yOf (V c main_v108) (V c main_v109)

theorem idx_facts4 : ∀ t : Fin cfg4.N, (win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0)
    ∧ ∀ a : Fin 2, win4_3.index t a = 0 ∧ win4_4.index t a = 0 :=
  (by decide +kernel : ∀ t : Fin grid4.N, _)

theorem xblk4_apply (c : Dev nD) (t : Fin cfg4.N) (k : Fin 5000) (q : Fin 128) (h : 5000 * t.val + k.val < 100000) :
    xblk4 V c t (ix2 k q) = V c main_v108 (ix2 ⟨5000 * t.val + k.val, h⟩ q) := by
  obtain ⟨⟨e0, e1, -⟩, -⟩ := idx_facts4 t
  show V c main_v108 (((cfg4.win 0).blk t).view.emb (ix2 k q)) = V c main_v108 (ix2 ⟨5000 * t.val + k.val, h⟩ q)
  refine congrArg (V c main_v108) (funext fun a => Fin.ext ?_)
  match a with
  | ⟨0, _⟩ => show win4_0.index t (0 : Fin 2) * 5000 + 1 * k.val = 5000 * t.val + k.val; omega
  | ⟨1, _⟩ => show win4_0.index t (1 : Fin 2) * 128 + 1 * q.val = q.val; omega

theorem bblk4_apply (c : Dev nD) (t : Fin cfg4.N) (q : Fin 128) :
    bblk4 V c t (ix2 (0 : Fin 1) q) = V c main_v109 (ix2 (0 : Fin 1) q) := by
  obtain ⟨⟨-, -, e0, e1, -⟩, -⟩ := idx_facts4 t
  show V c main_v109 (((cfg4.win 1).blk t).view.emb (ix2 (0 : Fin 1) q)) = V c main_v109 (ix2 (0 : Fin 1) q)
  refine congrArg (V c main_v109) (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

theorem acc4 (c : Dev nD) : Acc (outsAt4 V c) (xblk4 V c) (bblk4 V c) (V c main_v108) (V c main_v109) where
  hN := N_4
  hA t h0 := (outsAt4_A V c t h0).trans (out4_A_eq _ _ _ _ _ _ _ _ _ _ _ _ _ _ _)
  hB t h0 := (outsAt4_B V c t h0).trans (out4_B_eq _ _ _ _ _ _ _ _ _ _ _ _ _ _ _ _ _)
  hx := xblk4_apply V c
  hb := bblk4_apply V c

theorem region4_y (c : Dev nD) : (dat4 V c).arrAt 2 cfg4.N = Spec.relu (Spec.addRow (V c main_v108) (fun q => V c main_v109 (ix2 0 q))) :=
  (dat4 V c).arrAt_eq_of_cover 2 (Y4 V c) (fun t _ => by
    show (cfg4.win 2).cut (grid4.coords t) ((dat4 V c).after 2 t) = _
    rw [after4_2, (acc4 V c).y]
    obtain ⟨⟨-, -, -, -, e0, e1⟩, -⟩ := idx_facts4 t
    have ht : t.val < 20 := lt_of_lt_of_eq t.isLt N_4
    funext j
    obtain ⟨p, q, rfl⟩ : ∃ (p : Fin 5000) (q : Fin 128), j = ix2 p q := ⟨j 0, j 1, eq_ix2 j⟩
    refine ((acc4 V c).pay3 t p q (by have := p.isLt; omega)).trans ?_
    show Y4 V c _ = Y4 V c (((cfg4.win 2).blk t).view.emb (ix2 p q))
    refine congrArg (Y4 V c) (funext fun a => Fin.ext ?_)
    match a with
    | ⟨0, _⟩ => show 5000 * t.val + p.val = win4_2.index t (0 : Fin 2) * 5000 + 1 * p.val; omega
    | ⟨1, _⟩ => show q.val = win4_2.index t (1 : Fin 2) * 128 + 1 * q.val; omega) fun (i : S100000x128.Idx) => by
    have hi0 : (i 0).val < 100000 := (i 0).isLt
    have hi1 : (i 1).val < 128 := (i 1).isLt
    obtain ⟨t, ht⟩ : ∃ t : Fin cfg4.N, t.val = (i 0).val / 5000 := ⟨⟨(i 0).val / 5000, lt_of_lt_of_eq (by omega) N_4.symm⟩, rfl⟩
    obtain ⟨⟨-, -, -, -, e0, e1⟩, -⟩ := idx_facts4 t
    refine ⟨t, flush4_2 t, ?_⟩
    show i ∈ ((View.whole main_v110_0).slice (win4_2.rect t)).set
    rw [View.set_slice_whole, Rect.mem_set_unit]
    intro a
    match a with
    | ⟨0, _⟩ => show win4_2.index t (0 : Fin 2) * 5000 ≤ (i 0).val ∧ (i 0).val < win4_2.index t (0 : Fin 2) * 5000 + 5000; omega
    | ⟨1, _⟩ => show win4_2.index t (1 : Fin 2) * 128 ≤ (i 1).val ∧ (i 1).val < win4_2.index t (1 : Fin 2) * 128 + 128; omega

theorem region4_s (c : Dev nD) : (dat4 V c).arrAt 3 cfg4.N
    = Spec.mk2 (fun (_ : Fin 1) q => Spec.colSum (Spec.relu (Spec.addRow (V c main_v108) (fun q => V c main_v109 (ix2 0 q)))) q) :=
  (dat4 V c).arrAt_eq_of_cover 3 _ (fun t hf => by
    have e1 := ((idx_facts4 t).2 1).1
    show (cfg4.win 3).cut (grid4.coords t) ((dat4 V c).after 3 t) = _
    rw [after4_3]
    funext j
    obtain ⟨u, q, rfl⟩ : ∃ (u : Fin 1) (q : Fin 128), j = ix2 u q := ⟨j 0, j 1, eq_ix2 j⟩
    refine ((acc4 V c).s_last t ((flush4_3 t).mp hf) u q).trans ?_
    generalize Spec.colSum (Y4 V c) = f
    show f q = Spec.mk2 (fun (_ : Fin 1) q => f q) (((cfg4.win 3).blk t).view.emb (ix2 u q))
    refine congrArg f (Fin.ext ?_)
    show q.val = win4_3.index t (1 : Fin 2) * 128 + 1 * q.val
    omega) fun (i : S1x128.Idx) => by
    obtain ⟨t, ht⟩ : ∃ t : Fin cfg4.N, t.val = 19 := ⟨⟨19, lt_of_lt_of_eq (by omega) N_4.symm⟩, rfl⟩
    refine ⟨t, (flush4_3 t).mpr (by omega), ?_⟩
    show i ∈ ((View.whole main_v110_1).slice (win4_3.rect t)).set
    rw [View.set_slice_whole]
    exact mem_rect_zero win4_3 t (fun a => ((idx_facts4 t).2 a).1) (fun _ => rfl) i

theorem region4_sq (c : Dev nD) : (dat4 V c).arrAt 4 cfg4.N
    = Spec.mk2 (fun (_ : Fin 1) q => Spec.colSum (Spec.sq (Spec.relu (Spec.addRow (V c main_v108) (fun q => V c main_v109 (ix2 0 q))))) q) :=
  (dat4 V c).arrAt_eq_of_cover 4 _ (fun t hf => by
    have e1 := ((idx_facts4 t).2 1).2
    show (cfg4.win 4).cut (grid4.coords t) ((dat4 V c).after 4 t) = _
    rw [after4_4]
    funext j
    obtain ⟨u, q, rfl⟩ : ∃ (u : Fin 1) (q : Fin 128), j = ix2 u q := ⟨j 0, j 1, eq_ix2 j⟩
    refine ((acc4 V c).sq_last t ((flush4_4 t).mp hf) u q).trans ?_
    generalize Spec.colSum (Spec.sq (Y4 V c)) = f
    show f q = Spec.mk2 (fun (_ : Fin 1) q => f q) (((cfg4.win 4).blk t).view.emb (ix2 u q))
    refine congrArg f (Fin.ext ?_)
    show q.val = win4_4.index t (1 : Fin 2) * 128 + 1 * q.val
    omega) fun (i : S1x128.Idx) => by
    obtain ⟨t, ht⟩ : ∃ t : Fin cfg4.N, t.val = 19 := ⟨⟨19, lt_of_lt_of_eq (by omega) N_4.symm⟩, rfl⟩
    refine ⟨t, (flush4_4 t).mpr (by omega), ?_⟩
    show i ∈ ((View.whole main_v110_2).slice (win4_4.rect t)).set
    rw [View.set_slice_whole]
    exact mem_rect_zero win4_4 t (fun a => ((idx_facts4 t).2 a).2) (fun _ => rfl) i

end Region4

end Cert.KernelIdeal.RegFinalize

end
-- ==== Proof.RegBn.lean ====
import proofs.«407449_j27977416966480_1_alg».proof.Proof.Gen.KernelIdeal.Frame
import proofs.«407449_j27977416966480_1_alg».proof.Proof.Spec
import Idealize.ShloMosaic.Lib.Pipeline.Value
import Idealize.ShloMosaic.Lib.ValueIdx
import Idealize.ShloMosaic.Lib.ValueLayout
import proofs.«407449_j27977416966480_1_alg».proof.Proof.LibTiles

noncomputable section

namespace Cert.KernelIdeal.RegBn

open Idealize.ShloMosaic Idealize.ShloMosaic.ValueIdx Idealize.ShloMosaic.TcCoe Cert.KernelIdeal Cert.KernelIdeal.Gen Cert.Spec Cert.LibTiles

-- On a tile of the features beside the four rows read whole, the body computes that tile of the normalised array.
theorem bn_tile {X : Mat 100000 128} {mu var γ β : Mat 1 128} {n : ℕ} {e : Fin n → S5000x128.Idx → S100000x128.Idx}
    (he : Tiles e) (t : Fin n) {e1 e2 e3 e4 : S1x128.Idx → S1x128.Idx} (h1 : ∀ y, e1 y = y) (h2 : ∀ y, e2 y = y)
    (h3 : ∀ y, e3 y = y) (h4 : ∀ y, e4 y = y) (j : S5000x128.Idx) :
    out2_5 (F := Ideal) (fun y => X (e t y)) (fun y => mu (e1 y)) (fun y => var (e2 y)) (fun y => γ (e3 y)) (fun y => β (e4 y)) j
      = Spec.bn X (fun q => mu (ix2 0 q)) (fun q => var (ix2 0 q)) (fun q => γ (ix2 0 q)) (fun q => β (ix2 0 q)) (e t j) := by
  obtain ⟨p, q, rfl⟩ : ∃ (p : Fin 5000) (q : Fin 128), j = ix2 p q := ⟨j 0, j 1, eq_ix2 j⟩
  unfold out2_5 k2_pay1
  rw [View.canon_unit_zero hz]
  simp only [View.ld_unit_zero (S := S5000x128) hz, View.ld_unit_zero (S := S1x128) hz, shapeCast_self]
  rw [addf_apply, mulf_apply, mulf_apply, subf_apply, broadcastTo_1b_ab_apply, broadcastTo_1b_ab_apply, broadcastTo_1b_ab_apply,
    broadcastTo_1b_ab_apply, funext h1, funext h2, funext h3, funext h4, eq_ix2 (e t _), he.col]
  rfl

variable (V : (c : Dev nD) → (b : Ref sig .tc) → Buf (Elt Ideal) ((c : Thread nD τ).loc b))

theorem idx2 : ∀ t : Fin cfg2.N, win2_5.index t (0 : Fin 2) = t.val ∧ win2_5.index t (1 : Fin 2) = 0 :=
  (by decide +kernel : ∀ t : Fin grid2.N, _)

theorem tiles2 : Tiles fun t => ((cfg2.win 5).blk t).view.emb :=
  .of_index (fun t => win2_5.rect_emb_val t) rfl idx2

theorem region2 (c : Dev nD) :
    (dat2 V c).arrAt 5 cfg2.N
      = Spec.bn (V c main_v53_0) (fun q => V c main_v55 (ix2 0 q)) (fun q => V c main_v59 (ix2 0 q))
          (fun q => V c main_v60 (ix2 0 q)) (fun q => V c main_v61 (ix2 0 q)) :=
  (dat2 V c).arrAt_eq_of_cover 5 _
    (fun t _ => funext fun j => (congrFun (after2_5 V c t) j).trans <|
      bn_tile tiles2 t (whole_of_index (win2_1.rect_emb_val t) (Fin.forall_fin_two.2 ⟨rfl, rfl⟩))
        (whole_of_index (win2_2.rect_emb_val t) (Fin.forall_fin_two.2 ⟨rfl, rfl⟩))
        (whole_of_index (win2_3.rect_emb_val t) (Fin.forall_fin_two.2 ⟨rfl, rfl⟩))
        (whole_of_index (win2_4.rect_emb_val t) (Fin.forall_fin_two.2 ⟨rfl, rfl⟩)) j)
    (tiles2.exists_tile N_2 le_rfl fun t y => ⟨flush2_5 t, View.emb_mem_set _ y⟩)

theorem idx5 : ∀ t : Fin cfg5.N, win5_5.index t (0 : Fin 2) = t.val ∧ win5_5.index t (1 : Fin 2) = 0 :=
  (by decide +kernel : ∀ t : Fin grid5.N, _)

theorem tiles5 : Tiles fun t => ((cfg5.win 5).blk t).view.emb :=
  .of_index (fun t => win5_5.rect_emb_val t) rfl idx5

theorem region5 (c : Dev nD) :
    (dat5 V c).arrAt 5 cfg5.N
      = Spec.bn (V c main_v110_0) (fun q => V c main_v112 (ix2 0 q)) (fun q => V c main_v116 (ix2 0 q))
          (fun q => V c main_v117 (ix2 0 q)) (fun q => V c main_v118 (ix2 0 q)) :=
  (dat5 V c).arrAt_eq_of_cover 5 _
    (fun t _ => funext fun j => (congrFun (after5_5 V c t) j).trans <|
      bn_tile tiles5 t (whole_of_index (win5_1.rect_emb_val t) (Fin.forall_fin_two.2 ⟨rfl, rfl⟩))
        (whole_of_index (win5_2.rect_emb_val t) (Fin.forall_fin_two.2 ⟨rfl, rfl⟩))
        (whole_of_index (win5_3.rect_emb_val t) (Fin.forall_fin_two.2 ⟨rfl, rfl⟩))
        (whole_of_index (win5_4.rect_emb_val t) (Fin.forall_fin_two.2 ⟨rfl, rfl⟩)) j)
    (tiles5.exists_tile N_5 le_rfl fun t y => ⟨flush5_5 t, View.emb_mem_set _ y⟩)

end Cert.KernelIdeal.RegBn

end
-- ==== Proof.RegPool.lean ====
import proofs.«407449_j27977416966480_1_alg».proof.Proof.Gen.KernelIdeal.Frame
import proofs.«407449_j27977416966480_1_alg».proof.Proof.Spec
import proofs.«407449_j27977416966480_1_alg».proof.Proof.LibBlockSum
import proofs.«407449_j27977416966480_1_alg».proof.Proof.LibTiles
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.RegPool

open Idealize.ShloMosaic Idealize.ShloMosaic.TcCoe Idealize.ShloMosaic.ValueIdx Cert.KernelIdeal Cert.KernelIdeal.Gen Cert.Spec Cert.BlockSum Cert.LibTiles
open Idealize.SL.Sem
open Idealize.ShloMosaic.Pipeline (Dat)
open scoped BigOperators

section Pieces
variable {F : FTy → Type} [FloatOps F] (c : Dev nD) (i : grid8.Coords)
  (a1 : Memref sig .tc .vmem S5000x128 .f32) (h1 : a1.IsWhole) (a2 : Memref sig .tc .vmem S5000x1 .i32) (h2 : a2.IsWhole)
  (a3 : Memref sig .tc .vmem S64x128 .f32) (h3 : a3.IsWhole) (a4 : Memref sig .tc .vmem S1x64 .f32) (h4 : a4.IsWhole)
  (x0 : Vec F S5000x128 .f32) (x1 : Vec F S5000x1 .i32)

-- The first point zeroes both accumulators, then adds the tile's product and column sums.
theorem pieceA (hc : cond8_0 i) :
    (out8_A_2 c i a1 h1 a2 h2 a3 h3 a4 h4 hc x0 x1, out8_A_3 c i a1 h1 a2 h2 a3 h3 a4 h4 hc x0 x1)
      = (k8_pay4 x1 x0 k8_pay1, k8_pay5 x1 k8_pay2) := by
  unfold out8_A_2 out8_A_3
  rw [View.read_writes_eq_canon _ _ _ (cover8_A_2 c i a1 h1 a2 h2 a3 h3 a4 h4 hc x0 x1),
    View.read_writes_eq_canon _ _ _ (cover8_A_3 c i a1 h1 a2 h2 a3 h3 a4 h4 hc x0 x1)]
  unfold kernelRun8_A
  dsimp only
  sl_unfold_words
  simp only [View.canon_cons_unit_zero (S := ⟨2, _⟩) hz, View.readAt_eq_ld, h1.read_unread, h2.read_unread,
    View.ld_unit_zero (S := ⟨2, _⟩) hz, View.readCov_unit_zero (S := ⟨2, _⟩) _ hz]

-- Every later point adds them to what the point before left.
theorem pieceB (hc : ¬cond8_0 i) (xo2 : Vec F S64x128 .f32) (xo3 : Vec F S1x64 .f32) :
    (out8_B_2 c i a1 h1 a2 h2 a3 h3 a4 h4 hc x0 x1 xo2 xo3, out8_B_3 c i a1 h1 a2 h2 a3 h3 a4 h4 hc x0 x1 xo2 xo3)
      = (k8_pay4 x1 x0 xo2, k8_pay5 x1 xo3) := by
  unfold out8_B_2 out8_B_3
  rw [View.read_writes_eq_canon _ _ _ (cover8_B_2 c i a1 h1 a2 h2 a3 h3 a4 h4 hc x0 x1 xo2 xo3),
    View.read_writes_eq_canon _ _ _ (cover8_B_3 c i a1 h1 a2 h2 a3 h3 a4 h4 hc x0 x1 xo2 xo3)]
  unfold kernelRun8_B
  dsimp only
  sl_unfold_words
  simp only [View.canon_cons_unit_zero (S := ⟨2, _⟩) hz, View.readAt_eq_ld, h1.read_unread, h2.read_unread, h3.read_unread,
    h4.read_unread, View.ld_unit_zero (S := ⟨2, _⟩) hz]

end Pieces

section Payload

-- Entry (r, g) of the one-hot tile is 1 when row r's label is g and 0 otherwise: the label column is repeated along the columns and compared with the column number.
theorem onehot_apply (x1 : Vec Ideal S5000x1 .i32) (r : Fin 5000) (g : Fin 64) :
    (k8_pay3 (F := Ideal) x1) (ix2 r g) = onehot (x1 (ix2 r 0)) g.val := by
  unfold k8_pay3
  dsimp only
  show FloatOps.sitofp (F := Ideal) .f32 ((IntOp.cmpi .eq
      (broadcastTo S5000x64 (shapeCast S5000x1 x1 shapeCasts_S5000x1_S5000x1) broadcasts_S5000x1_S5000x64 (ix2 r g))
      (broadcastTo S5000x64 (iota Kind.tc S1x64 32 [1] iota_S1x64_d1_w32) broadcasts_S1x64_S5000x64 (ix2 r g))).setWidth 32) = _
  rw [shapeCast_self, broadcastTo_apply x1 _ (ix2 r g) (ix2 r 0) (fun a => by fin_cases a <;> rfl),
    broadcastTo_apply _ _ (ix2 r g) (ix2 (0 : Fin 1) g) (fun a => by fin_cases a <;> rfl), iota_single_apply]
  unfold onehot IntOp.cmpi
  show (((((BitVec.ofBool (x1 (ix2 r 0) == BitVec.ofNat 32 g.val)).setWidth 32).toInt : ℝ)) : EReal) = _
  by_cases h : x1 (ix2 r 0) = BitVec.ofNat 32 g.val
  · rw [if_pos h, beq_iff_eq.mpr h]
    show (((((1#1 : BitVec 1).setWidth 32).toInt : ℝ)) : EReal) = 1
    rw [show ((1#1 : BitVec 1).setWidth 32).toInt = 1 from by decide]
    norm_num
  · rw [if_neg h, beq_eq_false_iff_ne.mpr h]
    show (((((0#1 : BitVec 1).setWidth 32).toInt : ℝ)) : EReal) = 0
    rw [show ((0#1 : BitVec 1).setWidth 32).toInt = 0 from by decide]
    norm_num

abbrev D8 : DotDims S5000x64 S5000x128 S64x128 := dot_S5000x64_S5000x128_S64x128_0_0_1_1_n_n

-- At result entry (g, d) and contraction coordinate r the left operand is read at (r, g) and the right one at (r, d).
theorem lhs_D8 (g : Fin 64) (d : Fin 128) (r : Fin 5000) :
    D8.lhsIdx (ix2 g d) ((contrEquiv1 D8 5000 rfl rfl).symm r) = ix2 r g :=
  Shape.idx_ext₂ ((D8.lhsIdx_val_of_single rfl _ _).trans (contrEquiv1_symm_val D8 5000 rfl rfl r)) rfl
theorem rhs_D8 (g : Fin 64) (d : Fin 128) (r : Fin 5000) :
    D8.rhsIdx (ix2 g d) ((contrEquiv1 D8 5000 rfl rfl).symm r) = ix2 r d :=
  Shape.idx_ext₂ ((D8.rhsIdx_val_of_single rfl _ _).trans (contrEquiv1_symm_val D8 5000 rfl rfl r)) rfl

end Payload

section Blocks
variable (V : (c : Dev nD) → (b : Ref sig .tc) → Buf (Elt Ideal) ((c : Thread nD τ).loc b))

abbrev hblk (c : Dev nD) (t : Fin cfg8.N) : Vec Ideal S5000x128 .f32 := iblk8 V c 0 t
abbrev lblk (c : Dev nD) (t : Fin cfg8.N) : Vec Ideal S5000x1 .i32 := iblk8 V c 1 t

theorem idx8 : ∀ t : Fin cfg8.N, (win8_0.index t (0 : Fin 2) = t.val ∧ win8_0.index t (1 : Fin 2) = 0)
    ∧ (win8_1.index t (0 : Fin 2) = t.val ∧ win8_1.index t (1 : Fin 2) = 0)
    ∧ ∀ a : Fin 2, win8_2.index t a = 0 ∧ win8_3.index t a = 0 :=
  (by decide +kernel : ∀ t : Fin grid8.N, _)

-- Row r of point t's tile is row 5000·t + r of the array.
theorem hblk_apply (c : Dev nD) (t : Fin cfg8.N) (r : Fin 5000) (d : Fin 128) (n : Fin 100000) (hn : n.val = 5000 * t + r) :
    hblk V c t (ix2 r d) = (V c main_v123 : Mat 100000 128) (ix2 n d) :=
  congrArg (V c main_v123) ((Tiles.of_index (fun t => win8_0.rect_emb_val t) rfl fun t => (idx8 t).1).apply t r d n hn)
theorem lblk_apply (c : Dev nD) (t : Fin cfg8.N) (r : Fin 5000) (n : Fin 100000) (hn : n.val = 5000 * t + r) :
    lblk V c t (ix2 r 0) = V c main_v124 (ix2 n 0) :=
  congrArg (V c main_v124) ((Tiles.of_index (fun t => win8_1.rect_emb_val t) rfl fun t => (idx8 t).2.1).apply t r 0 n hn)

-- The updated first accumulator at (g, d): the old entry plus the tile's rows labelled g, column d.
theorem sum_apply (c : Dev nD) (t : Fin cfg8.N) (hn : ∀ r : Fin 5000, 5000 * t.val + r.val < 100000)
    (acc : Vec Ideal S64x128 .f32) (g : Fin 64) (d : Fin 128) :
    (k8_pay4 (F := Ideal) (lblk V c t) (hblk V c t) acc) (ix2 g d) = (acc (ix2 g d) : EReal)
      + ∑ r : Fin 5000, onehot (V c main_v124 (ix2 ⟨_, hn r⟩ 0)) g.val * (V c main_v123 : Mat 100000 128) (ix2 ⟨_, hn r⟩ d) := by
  unfold k8_pay4
  show (shapeCast S64x128 acc shapeCasts_S64x128_S64x128 (ix2 g d) : EReal)
      + FloatOps.matmul D8 none (truncf .bf16 (k8_pay3 (lblk V c t)) bitsLt_bf16_f32)
          (truncf .bf16 (shapeCast S5000x128 (hblk V c t) shapeCasts_S5000x128_S5000x128) bitsLt_bf16_f32)
          (constant S64x128 .f32 0x00000000#32) (ix2 g d) = _
  rw [shapeCast_self, shapeCast_self, Ideal.matmul_constant_zero_apply,
    ← Equiv.sum_comp (contrEquiv1 D8 5000 rfl rfl).symm]
  refine congrArg (_ + ·) (Finset.sum_congr rfl fun r _ => ?_)
  rw [lhs_D8, rhs_D8, ← lblk_apply V c t r ⟨_, hn r⟩ rfl, ← hblk_apply V c t r d ⟨_, hn r⟩ rfl]
  exact congrArg (· * _) (onehot_apply _ r g)

-- The updated second accumulator at g: the old entry plus the number of the tile's rows labelled g.
theorem cnt_apply (c : Dev nD) (t : Fin cfg8.N) (hn : ∀ r : Fin 5000, 5000 * t.val + r.val < 100000)
    (acc : Vec Ideal S1x64 .f32) (g : Fin 64) :
    (k8_pay5 (F := Ideal) (lblk V c t) acc) (ix2 (0 : Fin 1) g)
      = (acc (ix2 0 g) : EReal) + ∑ r : Fin 5000, onehot (V c main_v124 (ix2 ⟨_, hn r⟩ 0)) g.val := by
  unfold k8_pay5
  show (shapeCast S1x64 acc shapeCasts_S1x64_S1x64 (ix2 0 g) : EReal)
      + shapeCast S1x64 (multiReduction (F := Ideal) .add [0] S64 (k8_pay3 (lblk V c t)) 0x00000000#32 reduces_S5000x64_S64 (.inl rfl) rfl)
          shapeCasts_S64_S1x64 (ix2 0 g) = _
  rw [shapeCast_self]
  refine congrArg (_ + ·) ?_
  refine (shapeCast_addUnit_apply ![64] _ shapeCasts_S64_S1x64 (ix2 (0 : Fin 1) g)).trans ?_
  refine (Ideal.multiReduction_add_single (k8_pay3 (F := Ideal) (lblk V c t)) _ reduces_S5000x64_S64 _ _ _).trans ?_
  refine Finset.sum_congr rfl fun (r : Fin 5000) _ => ?_
  rw [show reduces_S5000x64_S64.lift (fun a => (ix2 (0 : Fin 1) g) a.succ) r = ix2 r g from Shape.idx_ext₂ rfl rfl,
    onehot_apply, lblk_apply V c t r ⟨_, hn r⟩ rfl]

end Blocks

section Final
variable (V : (c : Dev nD) → (b : Ref sig .tc) → Buf (Elt Ideal) ((c : Thread nD τ).loc b))

-- What the accumulators hold after the first point and after each later one.
theorem outs_zero (c : Dev nD) (h : 0 < cfg8.N) : outsAt8 V c 0 h
    = (k8_pay4 (lblk V c ⟨0, h⟩) (hblk V c ⟨0, h⟩) (k8_pay1 (F := Ideal)), k8_pay5 (lblk V c ⟨0, h⟩) (k8_pay2 (F := Ideal))) :=
  (outsAt8_A V c ⟨0, h⟩ rfl).trans (pieceA ..)
theorem outs_succ (c : Dev nD) (n : ℕ) (h : n + 1 < cfg8.N) : outsAt8 V c (n + 1) h
    = (k8_pay4 (lblk V c ⟨n + 1, h⟩) (hblk V c ⟨n + 1, h⟩) (outsAt8 V c n (Nat.lt_of_succ_lt h)).1,
       k8_pay5 (lblk V c ⟨n + 1, h⟩) (outsAt8 V c n (Nat.lt_of_succ_lt h)).2) :=
  (outsAt8_B V c ⟨n + 1, h⟩ (by have : cfg8.N = 20 := N_8; dsimp only; omega)).trans (pieceB ..)

section Acc
variable {N : ℕ} (hN : N = 20) (f : Fin (20 * 5000) → EReal) (s : ∀ n, n < N → EReal)
  (h0 : ∀ h, s 0 h = 0 + ∑ r : Fin 5000, f ⟨5000 * 0 + r.val, block_lt ⟨0, h.trans_eq hN⟩ r⟩)
  (hs : ∀ n h, s (n + 1) h = s n (Nat.lt_of_succ_lt h)
    + ∑ r : Fin 5000, f ⟨5000 * (n + 1) + r.val, block_lt ⟨n + 1, h.trans_eq hN⟩ r⟩)
include h0 hs

-- A sequence that starts at the first tile's sum and gains one tile's sum per step holds the sum over the tiles so far,
theorem acc_run : ∀ n (h : n < N), s n h = ∑ b : Fin (n + 1), ∑ r : Fin 5000,
      f ⟨5000 * b.val + r.val, block_lt ⟨b.val, lt_of_lt_of_le b.isLt (h.trans_eq hN)⟩ r⟩
  | 0, h => by rw [h0, Fin.sum_univ_castSucc (n := 0), Fin.sum_univ_zero]; rfl
  | n + 1, h => by rw [hs, acc_run n, Fin.sum_univ_castSucc (n := n + 1)]; rfl
-- and after all twenty tiles of 5000 the sum over every index.
theorem acc_total (h : 19 < N) : s 19 h = ∑ k, f k :=
  (acc_run hN f s h0 hs 19 h).trans (sum_blocks 20 5000 f)

end Acc

theorem sum_last (c : Dev nD) (n : ℕ) (h : n < cfg8.N) (h19 : n = 19) : ((outsAt8 V c n h).1 : Vec Ideal S64x128 .f32)
    = poolSum 64 (V c main_v123) (fun n => V c main_v124 (ix2 n 0)) := by
  subst h19
  exact mat_ext fun g d => acc_total N_8
    (fun k => onehot (V c main_v124 (ix2 k 0)) g.val * (V c main_v123 : Mat 100000 128) (ix2 k d))
    (fun n hn => (outsAt8 V c n hn).1 (ix2 g d))
    (fun hn => by
      rw [outs_zero]
      refine (sum_apply V c ⟨0, hn⟩ (block_lt (B := 20) ⟨0, hn.trans_eq N_8⟩) _ g d).trans ?_
      exact congrArg (· + _) Ideal.ofBits_zero_f32)
    (fun n hn => by
      rw [outs_succ]
      exact sum_apply V c ⟨n + 1, hn⟩ (block_lt (B := 20) ⟨n + 1, hn.trans_eq N_8⟩) _ g d) h

theorem cnt_last (c : Dev nD) (n : ℕ) (h : n < cfg8.N) (h19 : n = 19) : ((outsAt8 V c n h).2 : Vec Ideal S1x64 .f32)
    = mk2 (fun (_ : Fin 1) g => poolCnt 64 (fun n => V c main_v124 (ix2 n 0)) g) := by
  subst h19
  refine mat_ext fun p g => ?_
  obtain rfl : p = 0 := Subsingleton.elim _ _
  exact acc_total N_8 (fun k => onehot (V c main_v124 (ix2 k 0)) g.val)
    (fun n hn => (outsAt8 V c n hn).2 (ix2 0 g))
    (fun hn => by
      rw [outs_zero]
      refine (cnt_apply V c ⟨0, hn⟩ (block_lt (B := 20) ⟨0, hn.trans_eq N_8⟩) _ g).trans ?_
      exact congrArg (· + _) Ideal.ofBits_zero_f32)
    (fun n hn => by
      rw [outs_succ]
      exact cnt_apply V c ⟨n + 1, hn⟩ (block_lt (B := 20) ⟨n + 1, hn.trans_eq N_8⟩) _ g) h

abbrev tLast : Fin cfg8.N := ⟨19, by rw [show cfg8.N = 20 from N_8]; decide⟩

-- The last point's block is the whole array, and it holds the twenty points' addends.
theorem region8_sum (c : Dev nD) :
    (dat8 V c).arrAt 2 cfg8.N = Spec.poolSum 64 (V c main_v123) (fun n => V c main_v124 (ix2 n 0)) :=
  (dat8 V c).arrAt_eq_of_cover 2 _ (fun t hf => by
      show (cfg8.win 2).cut _ ((dat8 V c).after 2 t) = _
      rw [after8_2, sum_last V c t.val t.isLt (by have := (flush8_2 t).mp hf; have := t.isLt; have : cfg8.N = 20 := N_8; omega)]
      generalize poolSum 64 _ _ = G
      have hz' : (fun a => win8_2.index t a * main_v125_0.ty.shape.size a) = fun _ => 0 :=
        funext fun a => by simp only [((idx8 t).2.2 a).1, Nat.zero_mul]
      exact (Memref.read_access_unit_zero (Elt Ideal) main_v125_0 hz' (fun a => by rw [congrFun hz' a]; simp) G).symm)
    fun i => ⟨tLast, (flush8_2 tLast).mpr rfl,
      whole_of_index (win8_2.rect_emb_val tLast) (fun a => ((idx8 tLast).2.2 a).1) i ▸ View.emb_mem_set _ i⟩

theorem region8_cnt (c : Dev nD) :
    (dat8 V c).arrAt 3 cfg8.N
      = Spec.mk2 (fun (_ : Fin 1) g => Spec.poolCnt 64 (fun n => V c main_v124 (ix2 n 0)) g) :=
  (dat8 V c).arrAt_eq_of_cover 3 _ (fun t hf => by
      show (cfg8.win 3).cut _ ((dat8 V c).after 3 t) = _
      rw [after8_3, cnt_last V c t.val t.isLt (by have := (flush8_3 t).mp hf; have := t.isLt; have : cfg8.N = 20 := N_8; omega)]
      generalize mk2 _ = G
      have hz' : (fun a => win8_3.index t a * main_v125_1.ty.shape.size a) = fun _ => 0 :=
        funext fun a => by simp only [((idx8 t).2.2 a).2, Nat.zero_mul]
      exact (Memref.read_access_unit_zero (Elt Ideal) main_v125_1 hz' (fun a => by rw [congrFun hz' a]; simp) G).symm)
    fun i => ⟨tLast, (flush8_3 tLast).mpr rfl,
      whole_of_index (win8_3.rect_emb_val tLast) (fun a => ((idx8 tLast).2.2 a).2) i ▸ View.emb_mem_set _ i⟩

end Final

end Cert.KernelIdeal.RegPool

end
-- ==== Proof.LibColumn.lean ====
import Idealize.ShloMosaic.Lib.ValueIdx
import Idealize.ShloMosaic.Lib.Pipeline.Value

namespace Cert.LibColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumn
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

theorem max_coe (a b : ℝ) : max (a : EReal) (b : EReal) = ((max a b : ℝ) : EReal) :=
  (EReal.coe_strictMono.monotone.map_max (a := a) (b := b)).symm

theorem zero_coe : (0 : EReal) = ((0 : ℝ) : EReal) := EReal.coe_zero.symm

theorem one_coe : (1 : EReal) = ((1 : ℝ) : EReal) := EReal.coe_one.symm

theorem div_coe (a : ℝ) {b : ℝ} (h : b ≠ 0) : Ideal.div (a : EReal) (b : EReal) = ((a / b : ℝ) : EReal) := by
  rw [Ideal.div_coe h, mul_coe, mul_one_div]

theorem ofBits_zero : Ideal.ofBits .f32 0x00000000#32 = 0 := Ideal.ofBits_zero_f32

theorem ofBits_zero_coe : Ideal.ofBits .f32 0x00000000#32 = ((0 : ℝ) : EReal) := by
  rw [ofBits_zero, zero_coe]

theorem ofBits_one_coe : Ideal.ofBits .f32 0x3F800000#32 = ((1 : ℝ) : EReal) := by
  simp [Ideal.ofBits, Ideal.ieee, -EReal.coe_mul]; norm_num

theorem ofBits_one : Ideal.ofBits .f32 0x3F800000#32 = 1 := by
  rw [ofBits_one_coe, one_coe]

/-- The coercion of the reals into the extended reals is additive, so it commutes with finite sums. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

end Cert.LibIdealReal

end
-- ==== Proof.KHost.lean ====
import proofs.«407449_j27977416966480_1_alg».proof.Proof.Gen.KernelIdeal.Launch
import proofs.«407449_j27977416966480_1_alg».proof.Proof.Spec
import proofs.«407449_j27977416966480_1_alg».proof.Proof.LibColumn
import proofs.«407449_j27977416966480_1_alg».proof.Proof.LibIdealReal
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Idealize.ShloMosaic Idealize.ShloMosaic.ValueIdx Idealize.ShloMosaic.StableHlo
open Cert.KernelIdeal Cert.KernelIdeal.Gen Cert.Spec

variable [Facts] (W : Valuation τ sig (Elt Ideal))

abbrev v1Term : (⟨S1600000, .i32⟩ : BufTy).Contents (Elt Ideal) :=
  shapeCast S1600000 (extractStridedSlice S1x1600000 ![0, 0] (W (Proc.devRef .tc main_arg1)) slices_S2x1600000_S1x1600000_0_0) shapeCasts_S1x1600000_S1600000
abbrev v3Term : (⟨S1600000, .i32⟩ : BufTy).Contents (Elt Ideal) :=
  shapeCast S1600000 (extractStridedSlice S1x1600000 ![1, 0] (W (Proc.devRef .tc main_arg1)) slices_S2x1600000_S1x1600000_1_0) shapeCasts_S1x1600000_S1600000
abbrev v5Term : (⟨S1600000, .f32⟩ : BufTy).Contents (Elt Ideal) :=
  shapeCast S1600000 (extractStridedSlice S1600000x1 ![0, 1] (W (Proc.devRef .tc main_arg2)) slices_S1600000x2_S1600000x1_0_1) shapeCasts_S1600000x1_S1600000

theorem h0_v1 : StableHlo.after hostOps0 W (Proc.devRef .tc main_v1) = v1Term W := by
  after_results
  rfl
theorem h0_v3 : StableHlo.after hostOps0 W (Proc.devRef .tc main_v3) = v3Term W := by
  after_results
  rfl
theorem h0_v5 : StableHlo.after hostOps0 W (Proc.devRef .tc main_v5) = v5Term W := by
  after_results
  rfl

theorem h0_v7 (q : Fin 128) :
    StableHlo.after hostOps0 W (Proc.devRef .tc main_v7) (ix2 0 q) = (0 : EReal) := by
  after_results
  exact (shapeCast_a_1a_apply _ _ 0 q).trans LibIdealReal.ofBits_zero

theorem h1_v52 (q : Fin 128) :
    StableHlo.after hostOps1_2 (StableHlo.after hostOps1_1 (StableHlo.after hostOps1 W)) (Proc.devRef .tc main_v52) (ix2 0 q)
      = W (Proc.devRef .tc main_arg5) (ix1 q) := by
  after_results_simp
  exact shapeCast_a_1a_apply _ _ 0 q

theorem h2_v55 (q : Fin 128) :
    StableHlo.after hostOps2 W (Proc.devRef .tc main_v55) (ix2 0 q)
      = Ideal.div (W (Proc.devRef .tc main_v53_1) (ix2 0 q)) Spec.c1e5 := by
  after_results
  rfl

theorem h2_v59 (q : Fin 128) :
    StableHlo.after hostOps2 W (Proc.devRef .tc main_v59) (ix2 0 q)
      = Ideal.div (W (Proc.devRef .tc main_v53_2) (ix2 0 q)) Spec.c1e5
        - Ideal.div (W (Proc.devRef .tc main_v53_1) (ix2 0 q)) Spec.c1e5 * Ideal.div (W (Proc.devRef .tc main_v53_1) (ix2 0 q)) Spec.c1e5 := by
  after_results
  rfl

theorem h2_v60 (q : Fin 128) :
    StableHlo.after hostOps2 W (Proc.devRef .tc main_v60) (ix2 0 q) = W (Proc.devRef .tc main_arg6) (ix1 q) := by
  after_results
  exact shapeCast_a_1a_apply _ _ 0 q

theorem h2_v61 (q : Fin 128) :
    StableHlo.after hostOps2 W (Proc.devRef .tc main_v61) (ix2 0 q) = W (Proc.devRef .tc main_arg7) (ix1 q) := by
  after_results
  exact shapeCast_a_1a_apply _ _ 0 q

theorem h3_v64 (q : Fin 128) :
    StableHlo.after hostOps3 W (Proc.devRef .tc main_v64) (ix2 0 q) = (0 : EReal) := by
  after_results
  exact (shapeCast_a_1a_apply _ _ 0 q).trans LibIdealReal.ofBits_zero

theorem h4_v109 (q : Fin 128) :
    StableHlo.after hostOps4_2 (StableHlo.after hostOps4_1 (StableHlo.after hostOps4 W)) (Proc.devRef .tc main_v109) (ix2 0 q)
      = W (Proc.devRef .tc main_arg9) (ix1 q) := by
  after_results_simp
  exact shapeCast_a_1a_apply _ _ 0 q

theorem h5_v112 (q : Fin 128) :
    StableHlo.after hostOps5 W (Proc.devRef .tc main_v112) (ix2 0 q)
      = Ideal.div (W (Proc.devRef .tc main_v110_1) (ix2 0 q)) Spec.c1e5 := by
  after_results
  rfl

theorem h5_v116 (q : Fin 128) :
    StableHlo.after hostOps5 W (Proc.devRef .tc main_v116) (ix2 0 q)
      = Ideal.div (W (Proc.devRef .tc main_v110_2) (ix2 0 q)) Spec.c1e5
        - Ideal.div (W (Proc.devRef .tc main_v110_1) (ix2 0 q)) Spec.c1e5 * Ideal.div (W (Proc.devRef .tc main_v110_1) (ix2 0 q)) Spec.c1e5 := by
  after_results
  rfl

theorem h5_v117 (q : Fin 128) :
    StableHlo.after hostOps5 W (Proc.devRef .tc main_v117) (ix2 0 q) = W (Proc.devRef .tc main_arg10) (ix1 q) := by
  after_results
  exact shapeCast_a_1a_apply _ _ 0 q

theorem h5_v118 (q : Fin 128) :
    StableHlo.after hostOps5 W (Proc.devRef .tc main_v118) (ix2 0 q) = W (Proc.devRef .tc main_arg11) (ix1 q) := by
  after_results
  exact shapeCast_a_1a_apply _ _ 0 q

theorem h6_v120 (q : Fin 128) :
    StableHlo.after hostOps6 W (Proc.devRef .tc main_v120) (ix2 0 q) = W (Proc.devRef .tc main_arg13) (ix1 q) := by
  after_results
  exact shapeCast_a_1a_apply _ _ 0 q

theorem h7_v122 (q : Fin 128) :
    StableHlo.after hostOps7 W (Proc.devRef .tc main_v122) (ix2 0 q) = W (Proc.devRef .tc main_arg15) (ix1 q) := by
  after_results
  exact shapeCast_a_1a_apply _ _ 0 q

theorem h8_v124 (n : Fin 100000) :
    StableHlo.after hostOps8 W (Proc.devRef .tc main_v124) (ix2 n 0) = W (Proc.devRef .tc main_arg3) (ix1 n) := by
  after_results
  exact LibColumn.shapeCast_a_a1_apply _ _ n 0

theorem shapeCast_1a_a1_apply {α : Type} {a : ℕ} (x : (⟨2, ![1, a]⟩ : Shape).Idx → α)
    (h : (⟨2, ![1, a]⟩ : Shape).ShapeCasts ⟨2, ![a, 1]⟩) (g : Fin a) :
    shapeCast ⟨2, ![a, 1]⟩ x h (ix2 g (0 : Fin 1)) = x (ix2 (0 : Fin 1) g) :=
  shapeCast_apply x h _ _ (by
    rw [Shape.rowMajor_val_two, Shape.rowMajor_val_two]
    show 0 * a + g.val = g.val * 1 + 0
    omega)

theorem h9_v130 :
    StableHlo.after hostOps9 W (Proc.devRef .tc main_v130)
      = Spec.reps (W (Proc.devRef .tc main_v125_0)) (fun g => W (Proc.devRef .tc main_v125_1) (ix2 0 g)) := by
  after_results
  refine mat_ext fun g d => ?_
  show Ideal.div _ _ = Ideal.div _ _
  refine congrArg _ ?_
  refine (broadcastInDim_apply _ _ _ (ix2 g d) (ix2 g (0 : Fin 1)) fun a => ?_).trans ?_
  · match a with
    | ⟨0, _⟩ => rfl
    | ⟨1, _⟩ => rfl
  · exact congrArg₂ (max : EReal → EReal → EReal) (shapeCast_1a_a1_apply _ _ g) LibIdealReal.ofBits_one

theorem h9_v131 (q : Fin 128) :
    StableHlo.after hostOps9 W (Proc.devRef .tc main_v131) (ix2 0 q) = W (Proc.devRef .tc main_arg17) (ix1 q) := by
  after_results
  exact shapeCast_a_1a_apply _ _ 0 q

theorem h10_v133 (q : Fin 2) :
    StableHlo.after hostOps10 W (Proc.devRef .tc main_v133) (ix2 0 q) = W (Proc.devRef .tc main_arg19) (ix1 q) := by
  after_results
  exact shapeCast_a_1a_apply _ _ 0 q

end Cert.KernelIdeal.Host

end
-- ==== Proof.KCarry.lean ====
import proofs.«407449_j27977416966480_1_alg».proof.Proof.Gen.KernelIdeal.Frame

noncomputable section

namespace Cert.KernelIdeal.Carry

open Idealize.ShloMosaic Idealize.ShloMosaic.TcCoe
open Cert.KernelIdeal.Gen

variable {F : FTy → Type} [FloatOps F]

variable (m : (ℓ : Loc nD τ sig) → Buf (Elt F) ℓ) (ρ : Dev nD → PrngReg) (c : Dev nD)

def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

def base : List (Ref sig .tc) := args ++ [main_v1, main_v3, main_v5]

-- Host operations none of which writes a listed buffer leave every listed buffer as it was.
theorem host_step {L : List (Ref sig .tc)} {ops : List (HloOp τ sig (Elt F))} {V : Valuation τ sig (Elt F)}
    (h : ops.Forall fun op => ∀ b ∈ L, Proc.devRef .tc b ∉ op.writes) :
    ∀ b ∈ L, StableHlo.after ops V (Proc.devRef .tc b) = V (Proc.devRef .tc b) :=
  fun b hb => StableHlo.after_of_forall_not_mem ops V fun op hop => List.forall_iff_forall_mem.mp h op hop b hb

-- A region leaves a listed buffer as entered when the buffer is none of its arrays, or an array that ends as entered.
theorem region_step {L : List (Ref sig .tc)} {n : ℕ} {r : Fin n → Ref sig .tc} {X V : Valuation τ sig (Elt F)}
    (hne : ∀ b, (∀ w, r w ≠ b) → X (Proc.devRef .tc b) = V (Proc.devRef .tc b))
    (harr : ∀ w, r w ∈ L → X (Proc.devRef .tc (r w)) = V (Proc.devRef .tc (r w))) :
    ∀ b ∈ L, X (Proc.devRef .tc b) = V (Proc.devRef .tc b) := fun b hb => by
  by_cases e : ∃ w, r w = b
  · obtain ⟨w, rfl⟩ := e
    exact harr w hb
  · exact hne b fun w ew => e ⟨w, ew⟩

-- Agreement on the listed buffers composes.
theorem step {L : List (Ref sig .tc)} {X Y Z : Valuation τ sig (Elt F)}
    (h₁ : ∀ b ∈ L, X (Proc.devRef .tc b) = Y (Proc.devRef .tc b))
    (h₂ : ∀ b ∈ L, Y (Proc.devRef .tc b) = Z (Proc.devRef .tc b)) :
    ∀ b ∈ L, X (Proc.devRef .tc b) = Z (Proc.devRef .tc b) := fun b hb => (h₁ b hb).trans (h₂ b hb)

-- The case of a single buffer.
theorem one {X Y : Valuation τ sig (Elt F)} {b : Ref sig .tc}
    (h : ∀ x ∈ [b], X (Proc.devRef .tc x) = Y (Proc.devRef .tc x)) : X (Proc.devRef .tc b) = Y (Proc.devRef .tc b) :=
  h b (List.mem_singleton_self b)

set_option hygiene false in
local macro "host_keep " ops:ident : tactic => `(tactic|
  exact host_step (ops := $ops) (by
    simp only [$ops:ident, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact fun b hb => StableHlo.devRef_ne_of_ne (ne_of_mem_of_not_mem hb (by decide))))

set_option hygiene false in
local macro "region_keep " ne:ident arr:ident dat:ident V:ident A:ident : tactic => `(tactic|
  exact region_step ($ne m ρ c) fun w hw => ($arr m ρ c w).trans
    ((($dat ($V m ρ) c).arrAt_in w (by revert w; decide) _).trans ($A ($V m ρ) c w)))

theorem W1_arg : ∀ b ∈ args, W1 m ρ c (Proc.devRef .tc b) = m ((c : Thread nD τ).loc b) := by
  host_keep hostOps0

theorem carry2 : ∀ b ∈ base, W2 m ρ c (Proc.devRef .tc b) = W1 m ρ c (Proc.devRef .tc b) := by
  region_keep W2_of_ne W2_arr dat0 V1 A_eq0

theorem carry6 : ∀ b ∈ base, W6 m ρ c (Proc.devRef .tc b) = W1 m ρ c (Proc.devRef .tc b) :=
  step (Y := W5 m ρ c) (by region_keep W6_of_ne W6_arr dat1 V5 A_eq1) (step (Y := W4 m ρ c) (by host_keep hostOps1_2) (step (Y := W3 m ρ c) (by host_keep hostOps1_1) (step (by host_keep hostOps1) (carry2 m ρ c))))

theorem carry9 : ∀ b ∈ base, W9 m ρ c (Proc.devRef .tc b) = W1 m ρ c (Proc.devRef .tc b) :=
  step (Y := W8 m ρ c) (by host_keep hostOps3) (step (Y := W7 m ρ c) (by region_keep W8_of_ne W8_arr dat2 V7 A_eq2) (step (by host_keep hostOps2) (carry6 m ρ c)))

theorem carry10 : ∀ b ∈ base, W10 m ρ c (Proc.devRef .tc b) = W1 m ρ c (Proc.devRef .tc b) :=
  step (by region_keep W10_of_ne W10_arr dat3 V9 A_eq3) (carry9 m ρ c)

theorem carry14 : ∀ b ∈ base, W14 m ρ c (Proc.devRef .tc b) = W1 m ρ c (Proc.devRef .tc b) :=
  step (Y := W13 m ρ c) (by region_keep W14_of_ne W14_arr dat4 V13 A_eq4) (step (Y := W12 m ρ c) (by host_keep hostOps4_2) (step (Y := W11 m ρ c) (by host_keep hostOps4_1) (step (by host_keep hostOps4) (carry10 m ρ c))))

theorem carry16 : ∀ b ∈ base, W16 m ρ c (Proc.devRef .tc b) = W1 m ρ c (Proc.devRef .tc b) :=
  step (Y := W15 m ρ c) (by region_keep W16_of_ne W16_arr dat5 V15 A_eq5) (step (by host_keep hostOps5) (carry14 m ρ c))

theorem carry17 : ∀ b ∈ base, W17 m ρ c (Proc.devRef .tc b) = W1 m ρ c (Proc.devRef .tc b) :=
  step (by host_keep hostOps6) (carry16 m ρ c)

theorem carry18 : ∀ b ∈ base, W18 m ρ c (Proc.devRef .tc b) = W1 m ρ c (Proc.devRef .tc b) :=
  step (by region_keep W18_of_ne W18_arr dat6 V17 A_eq6) (carry17 m ρ c)

theorem carry19 : ∀ b ∈ base, W19 m ρ c (Proc.devRef .tc b) = W1 m ρ c (Proc.devRef .tc b) :=
  step (by host_keep hostOps7) (carry18 m ρ c)

theorem carry20 : ∀ b ∈ base, W20 m ρ c (Proc.devRef .tc b) = W1 m ρ c (Proc.devRef .tc b) :=
  step (by region_keep W20_of_ne W20_arr dat7 V19 A_eq7) (carry19 m ρ c)

theorem carry22 : ∀ b ∈ base, W22 m ρ c (Proc.devRef .tc b) = W1 m ρ c (Proc.devRef .tc b) :=
  step (Y := W21 m ρ c) (by region_keep W22_of_ne W22_arr dat8 V21 A_eq8) (step (by host_keep hostOps8) (carry20 m ρ c))

theorem carry23 : ∀ b ∈ base, W23 m ρ c (Proc.devRef .tc b) = W1 m ρ c (Proc.devRef .tc b) :=
  step (by host_keep hostOps9) (carry22 m ρ c)

theorem carry24 : ∀ b ∈ base, W24 m ρ c (Proc.devRef .tc b) = W1 m ρ c (Proc.devRef .tc b) :=
  step (by region_keep W24_of_ne W24_arr dat9 V23 A_eq9) (carry23 m ρ c)

theorem carry25 : ∀ b ∈ base, W25 m ρ c (Proc.devRef .tc b) = W1 m ρ c (Proc.devRef .tc b) :=
  step (by host_keep hostOps10) (carry24 m ρ c)

theorem keep_v53_0 : W7 m ρ c (Proc.devRef .tc main_v53_0) = W6 m ρ c (Proc.devRef .tc main_v53_0) :=
  one (by host_keep hostOps2)

theorem keep_v62 : W9 m ρ c (Proc.devRef .tc main_v62) = W8 m ρ c (Proc.devRef .tc main_v62) :=
  one (by host_keep hostOps3)

theorem keep_v110_0 : W15 m ρ c (Proc.devRef .tc main_v110_0) = W14 m ρ c (Proc.devRef .tc main_v110_0) :=
  one (by host_keep hostOps5)

theorem keep_v119 : W17 m ρ c (Proc.devRef .tc main_v119) = W16 m ρ c (Proc.devRef .tc main_v119) :=
  one (by host_keep hostOps6)

theorem keep_v121 : W19 m ρ c (Proc.devRef .tc main_v121) = W18 m ρ c (Proc.devRef .tc main_v121) :=
  one (by host_keep hostOps7)

theorem keep_v123_21 : W21 m ρ c (Proc.devRef .tc main_v123) = W20 m ρ c (Proc.devRef .tc main_v123) :=
  one (by host_keep hostOps8)

theorem keep_v123_26 : W26 m ρ c (Proc.devRef .tc main_v123) = W20 m ρ c (Proc.devRef .tc main_v123) :=
  one (step (Y := W25 m ρ c) (by region_keep W26_of_ne W26_arr dat10 V25 A_eq10) (step (Y := W24 m ρ c) (by host_keep hostOps10) (step (Y := W23 m ρ c) (by region_keep W24_of_ne W24_arr dat9 V23 A_eq9) (step (Y := W22 m ρ c) (by host_keep hostOps9) (step (Y := W21 m ρ c) (by region_keep W22_of_ne W22_arr dat8 V21 A_eq8) (by host_keep hostOps8))))))

theorem keep_v130_26 : W26 m ρ c (Proc.devRef .tc main_v130) = W23 m ρ c (Proc.devRef .tc main_v130) :=
  one (step (Y := W25 m ρ c) (by region_keep W26_of_ne W26_arr dat10 V25 A_eq10) (step (Y := W24 m ρ c) (by host_keep hostOps10) (by region_keep W24_of_ne W24_arr dat9 V23 A_eq9)))

theorem keep_v132_25 : W25 m ρ c (Proc.devRef .tc main_v132) = W24 m ρ c (Proc.devRef .tc main_v132) :=
  one (by host_keep hostOps10)

end Cert.KernelIdeal.Carry

end
-- ==== Proof.HostChain.lean ====
import proofs.«407449_j27977416966480_1_alg».proof.Proof.Gen.KernelIdeal.Launch
import proofs.«407449_j27977416966480_1_alg».proof.ReferenceIdeal
import proofs.«407449_j27977416966480_1_alg».proof.Proof.Spec

noncomputable section

namespace Cert.HostChain

open Idealize.ShloMosaic Idealize.ShloMosaic.TcCoe

section Kernel

open Cert.KernelIdeal Cert.KernelIdeal.Facts₀

variable [Cert.KernelIdeal.Facts]

def wrapK (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

def degK (dst : IVec S1600000 32) (w : FVec Ideal S1600000 .f32) : FVec Ideal S100000 .f32 :=
  addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst) w)
    (broadcastInDim S100000 ![] bcast_S_S100000 (constant S_ .f32 0x3F800000#32))

def dinvK (dst : IVec S1600000 32) (w : FVec Ideal S1600000 .f32) : FVec Ideal S100000 .f32 :=
  select (cmpf .ogt (degK dst w) (broadcastInDim S100000 ![] bcast_S_S100000 (constant S_ .f32 0x00000000#32)))
    (Host.rsqrt (degK dst w))
    (broadcastInDim S100000 ![] bcast_S_S100000 (constant S_ .f32 0x00000000#32))

def coefK (src dst : IVec S1600000 32) (w : FVec Ideal S1600000 .f32) : FVec Ideal S1600000 .f32 :=
  mulf
    (mulf
      (Host.gather gather_S100000_S1600000x1_S1600000_n_0_n_n_0_1_1 (dinvK dst w)
        (broadcastInDim S1600000x1 ![0] bcast_S1600000_S1600000x1_0 (wrapK src)))
      w)
    (Host.gather gather_S100000_S1600000x1_S1600000_n_0_n_n_0_1_1 (dinvK dst w)
      (broadcastInDim S1600000x1 ![0] bcast_S1600000_S1600000x1_0 (wrapK dst)))

def aggK (src dst : IVec S1600000 32) (w : FVec Ideal S1600000 .f32) (h : FVec Ideal S100000x128 .f32) :
    FVec Ideal S100000x128 .f32 :=
  addf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf
        (broadcastInDim S1600000x128 ![0, 1] bcast_S1600000x1_S1600000x128_0_1
          (broadcastInDim S1600000x1 ![0] bcast_S1600000_S1600000x1_0 (coefK src dst w)))
        (Host.gather gather_S100000x128_S1600000x1_S1600000x128_1_0_n_n_0_1_1128 h
          (broadcastInDim S1600000x1 ![0] bcast_S1600000_S1600000x1_0 (wrapK src)))))
    (mulf
      (broadcastInDim S100000x128 ![0, 1] bcast_S100000x1_S100000x128_0_1
        (broadcastInDim S100000x1 ![0] bcast_S100000_S100000x1_0 (mulf (dinvK dst w) (dinvK dst w))))
      h)

end Kernel

section KernelRun

open Cert.KernelIdeal Cert.KernelIdeal.Gen

variable [Cert.KernelIdeal.Facts]

theorem where0 (V : Valuation τ sig (Elt Ideal)) :
    StableHlo.after hostOps1_1 V (Proc.devRef .tc main_v17)
      = select (V (Proc.devRef .tc main_v15)) (V (Proc.devRef .tc main_v16))
          (broadcastInDim S100000 ![] Facts₀.bcast_S_S100000 (V (Proc.devRef .tc main_cst_3))) := by
  after_results_simp
  rfl

theorem kchunk0 (W : Valuation τ sig (Elt Ideal)) :
    StableHlo.after hostOps1_2 (StableHlo.after hostOps1_1 (StableHlo.after hostOps1 W)) (Proc.devRef .tc main_v51)
      = aggK (W (Proc.devRef .tc main_v1)) (W (Proc.devRef .tc main_v3)) (W (Proc.devRef .tc main_v5))
          (W (Proc.devRef .tc main_v8)) := by
  generalize hV : StableHlo.after hostOps1_1 (StableHlo.after hostOps1 W) = V2
  after_results_simp
  subst hV
  rw [where0]
  after_results_simp
  unfold aggK coefK wrapK dinvK
  rfl

theorem where1 (V : Valuation τ sig (Elt Ideal)) :
    StableHlo.after hostOps4_1 V (Proc.devRef .tc main_v74)
      = select (V (Proc.devRef .tc main_v72)) (V (Proc.devRef .tc main_v73))
          (broadcastInDim S100000 ![] Facts₀.bcast_S_S100000 (V (Proc.devRef .tc main_cst_16))) := by
  after_results_simp
  rfl

theorem kchunk1 (W : Valuation τ sig (Elt Ideal)) :
    StableHlo.after hostOps4_2 (StableHlo.after hostOps4_1 (StableHlo.after hostOps4 W)) (Proc.devRef .tc main_v108)
      = aggK (W (Proc.devRef .tc main_v1)) (W (Proc.devRef .tc main_v3)) (W (Proc.devRef .tc main_v5))
          (W (Proc.devRef .tc main_v65)) := by
  generalize hV : StableHlo.after hostOps4_1 (StableHlo.after hostOps4 W) = V2
  after_results_simp
  subst hV
  rw [where1]
  after_results_simp
  unfold aggK coefK wrapK dinvK
  rfl

end KernelRun

end Cert.HostChain

end
-- ==== Proof.KG.lean ====
import proofs.«407449_j27977416966480_1_alg».proof.Proof.Gen.KernelIdeal.Frame
import proofs.«407449_j27977416966480_1_alg».proof.Proof.Model
import proofs.«407449_j27977416966480_1_alg».proof.Proof.HostChain

noncomputable section

namespace Cert.KernelIdeal.Chain

open Idealize.ShloMosaic Idealize.ShloMosaic.ValueIdx Idealize.ShloMosaic.TcCoe Idealize.SL.Sem
open Cert.KernelIdeal Cert.KernelIdeal.Gen Cert.Spec Cert.Model

variable (m : (ℓ : Loc nD τ sig) → Buf (Elt Ideal) ℓ) (ρ : Dev nD → PrngReg) (c : Dev nD)

def GK : Agg := fun h =>
  Cert.HostChain.aggK (W1 m ρ c (Proc.devRef .tc main_v1)) (W1 m ρ c (Proc.devRef .tc main_v3))
    (W1 m ρ c (Proc.devRef .tc main_v5)) h

end Cert.KernelIdeal.Chain

end
-- ==== Proof.KChain.lean ====
import proofs.«407449_j27977416966480_1_alg».proof.Proof.ArgsDefs
import proofs.«407449_j27977416966480_1_alg».proof.Proof.RegLin
import proofs.«407449_j27977416966480_1_alg».proof.Proof.RegLinSmall
import proofs.«407449_j27977416966480_1_alg».proof.Proof.RegFinalize
import proofs.«407449_j27977416966480_1_alg».proof.Proof.RegBn
import proofs.«407449_j27977416966480_1_alg».proof.Proof.RegPool
import proofs.«407449_j27977416966480_1_alg».proof.Proof.KHost
import proofs.«407449_j27977416966480_1_alg».proof.Proof.KCarry
import proofs.«407449_j27977416966480_1_alg».proof.Proof.KG

noncomputable section

namespace Cert.KernelIdeal.Chain

open Idealize.ShloMosaic Idealize.ShloMosaic.ValueIdx Idealize.ShloMosaic.TcCoe Idealize.SL.Sem
open Cert.KernelIdeal Cert.KernelIdeal.Gen Cert.Spec Cert.Model

variable (m : (ℓ : Loc nD τ sig) → Buf (Elt Ideal) ℓ) (ρ : Dev nD → PrngReg) (c : Dev nD)

local notation "⟪" b "⟫" => Proc.devRef Proc.tc b

abbrev A : Args := Launch.args m c
-- A boundary that agrees with the first region's entry on the carried buffers holds each argument's launch contents.
theorem arg {W : Valuation τ sig (Elt Ideal)} (h : ∀ b ∈ Carry.base, W ⟪b⟫ = W1 m ρ c ⟪b⟫) (b : Ref sig .tc)
    (hb : b ∈ Carry.args := by decide) : W ⟪b⟫ = m ((c : Thread nD τ).loc b) :=
  (h b (List.mem_append_left [main_v1, main_v3, main_v5] hb)).trans (Carry.W1_arg m ρ c b hb)

def y0 : Mat 100000 128 := preK (GK m ρ c) (A m c).x (A m c).Wg0 (A m c).bg0
def h1 : Mat 100000 128 := layerK (GK m ρ c) (A m c).x (A m c).Wg0 (A m c).bg0 (A m c).gamma0 (A m c).beta0
def y1 : Mat 100000 128 := preK (GK m ρ c) (h1 m ρ c) (A m c).Wg1 (A m c).bg1
def h2 : Mat 100000 128 := layerK (GK m ρ c) (h1 m ρ c) (A m c).Wg1 (A m c).bg1 (A m c).gamma1 (A m c).beta1

theorem s_v8 : W2 m ρ c ⟪main_v8⟫ = addRow (dot (A m c).x (A m c).Wg0) (fun _ => (0 : EReal)) :=
  (W2_arr m ρ c 3).trans ((RegLin.region0 (V1 m ρ) c).trans (congrArg₂ addRow
    (congrArg₂ dot (Carry.W1_arg m ρ c main_arg0 (by decide)) (Carry.W1_arg m ρ c main_arg4 (by decide)))
    (funext (Host.h0_v7 (W0 m ρ c)))))

theorem s_v51 : V5 m ρ c main_v51 = GK m ρ c (addRow (dot (A m c).x (A m c).Wg0) (fun _ => (0 : EReal))) := by
  refine (Cert.HostChain.kchunk0 (W2 m ρ c)).trans ?_
  rw [s_v8 m ρ c, Carry.carry2 m ρ c main_v1 (by decide), Carry.carry2 m ρ c main_v3 (by decide),
    Carry.carry2 m ρ c main_v5 (by decide)]
  rfl

theorem s_v52 : (fun q : Fin 128 => V5 m ρ c main_v52 (ix2 0 q)) = (A m c).bg0 :=
  funext fun q => (Host.h1_v52 (W2 m ρ c) q).trans (congrFun (arg m ρ c (Carry.carry2 m ρ c) main_arg5) (ix1 q))

theorem pre0 : relu (addRow (V5 m ρ c main_v51) (fun q => V5 m ρ c main_v52 (ix2 0 q))) = y0 m ρ c := by
  rw [s_v51 m ρ c, s_v52 m ρ c]; rfl

theorem s_v53_0 : V6 m ρ c main_v53_0 = y0 m ρ c :=
  (W6_arr m ρ c 2).trans ((RegFinalize.region1_y (V5 m ρ) c).trans (pre0 m ρ c))
theorem s_v53_1 : V6 m ρ c main_v53_1 = mk2 (fun (_ : Fin 1) q => colSum (y0 m ρ c) q) :=
  (W6_arr m ρ c 3).trans ((RegFinalize.region1_s (V5 m ρ) c).trans (by rw [pre0 m ρ c]))
theorem s_v53_2 : V6 m ρ c main_v53_2 = mk2 (fun (_ : Fin 1) q => colSum (sq (y0 m ρ c)) q) :=
  (W6_arr m ρ c 4).trans ((RegFinalize.region1_sq (V5 m ρ) c).trans (by rw [pre0 m ρ c]))

theorem s_v55 : (fun q : Fin 128 => V7 m ρ c main_v55 (ix2 0 q)) = mean (y0 m ρ c) := by
  funext q
  refine (Host.h2_v55 (W6 m ρ c) q).trans ?_
  rw [show W6 m ρ c ⟪main_v53_1⟫ = _ from s_v53_1 m ρ c]; rfl
theorem s_v59 : (fun q : Fin 128 => V7 m ρ c main_v59 (ix2 0 q)) = varK (y0 m ρ c) := by
  funext q
  refine (Host.h2_v59 (W6 m ρ c) q).trans ?_
  rw [show W6 m ρ c ⟪main_v53_1⟫ = _ from s_v53_1 m ρ c, show W6 m ρ c ⟪main_v53_2⟫ = _ from s_v53_2 m ρ c]; rfl
theorem s_v60 : (fun q : Fin 128 => V7 m ρ c main_v60 (ix2 0 q)) = (A m c).gamma0 :=
  funext fun q => (Host.h2_v60 (W6 m ρ c) q).trans (congrFun (arg m ρ c (Carry.carry6 m ρ c) main_arg6) (ix1 q))
theorem s_v61 : (fun q : Fin 128 => V7 m ρ c main_v61 (ix2 0 q)) = (A m c).beta0 :=
  funext fun q => (Host.h2_v61 (W6 m ρ c) q).trans (congrFun (arg m ρ c (Carry.carry6 m ρ c) main_arg7) (ix1 q))

theorem s_v62 : V8 m ρ c main_v62 = h1 m ρ c := by
  refine (W8_arr m ρ c 5).trans ((RegBn.region2 (V7 m ρ) c).trans ?_)
  have hy : V7 m ρ c main_v53_0 = y0 m ρ c := (Carry.keep_v53_0 m ρ c).trans (s_v53_0 m ρ c)
  rw [hy, s_v55 m ρ c, s_v59 m ρ c, s_v60 m ρ c, s_v61 m ρ c]; rfl

theorem s_v65 : V10 m ρ c main_v65 = addRow (dot (h1 m ρ c) (A m c).Wg1) (fun _ => (0 : EReal)) :=
  (W10_arr m ρ c 3).trans ((RegLin.region3 (V9 m ρ) c).trans (congrArg₂ addRow
    (congrArg₂ dot ((Carry.keep_v62 m ρ c).trans (s_v62 m ρ c)) (arg m ρ c (Carry.carry9 m ρ c) main_arg8))
    (funext (Host.h3_v64 (W8 m ρ c)))))

theorem s_v108 : V13 m ρ c main_v108 = GK m ρ c (addRow (dot (h1 m ρ c) (A m c).Wg1) (fun _ => (0 : EReal))) := by
  refine (Cert.HostChain.kchunk1 (W10 m ρ c)).trans ?_
  rw [show W10 m ρ c ⟪main_v65⟫ = _ from s_v65 m ρ c, Carry.carry10 m ρ c main_v1 (by decide),
    Carry.carry10 m ρ c main_v3 (by decide), Carry.carry10 m ρ c main_v5 (by decide)]
  rfl

theorem s_v109 : (fun q : Fin 128 => V13 m ρ c main_v109 (ix2 0 q)) = (A m c).bg1 :=
  funext fun q => (Host.h4_v109 (W10 m ρ c) q).trans (congrFun (arg m ρ c (Carry.carry10 m ρ c) main_arg9) (ix1 q))

theorem pre1 : relu (addRow (V13 m ρ c main_v108) (fun q => V13 m ρ c main_v109 (ix2 0 q))) = y1 m ρ c := by
  rw [s_v108 m ρ c, s_v109 m ρ c]; rfl

theorem s_v110_0 : V14 m ρ c main_v110_0 = y1 m ρ c :=
  (W14_arr m ρ c 2).trans ((RegFinalize.region4_y (V13 m ρ) c).trans (pre1 m ρ c))
theorem s_v110_1 : V14 m ρ c main_v110_1 = mk2 (fun (_ : Fin 1) q => colSum (y1 m ρ c) q) :=
  (W14_arr m ρ c 3).trans ((RegFinalize.region4_s (V13 m ρ) c).trans (by rw [pre1 m ρ c]))
theorem s_v110_2 : V14 m ρ c main_v110_2 = mk2 (fun (_ : Fin 1) q => colSum (sq (y1 m ρ c)) q) :=
  (W14_arr m ρ c 4).trans ((RegFinalize.region4_sq (V13 m ρ) c).trans (by rw [pre1 m ρ c]))

theorem s_v112 : (fun q : Fin 128 => V15 m ρ c main_v112 (ix2 0 q)) = mean (y1 m ρ c) := by
  funext q
  refine (Host.h5_v112 (W14 m ρ c) q).trans ?_
  rw [show W14 m ρ c ⟪main_v110_1⟫ = _ from s_v110_1 m ρ c]; rfl
theorem s_v116 : (fun q : Fin 128 => V15 m ρ c main_v116 (ix2 0 q)) = varK (y1 m ρ c) := by
  funext q
  refine (Host.h5_v116 (W14 m ρ c) q).trans ?_
  rw [show W14 m ρ c ⟪main_v110_1⟫ = _ from s_v110_1 m ρ c, show W14 m ρ c ⟪main_v110_2⟫ = _ from s_v110_2 m ρ c]; rfl
theorem s_v117 : (fun q : Fin 128 => V15 m ρ c main_v117 (ix2 0 q)) = (A m c).gamma1 :=
  funext fun q => (Host.h5_v117 (W14 m ρ c) q).trans (congrFun (arg m ρ c (Carry.carry14 m ρ c) main_arg10) (ix1 q))
theorem s_v118 : (fun q : Fin 128 => V15 m ρ c main_v118 (ix2 0 q)) = (A m c).beta1 :=
  funext fun q => (Host.h5_v118 (W14 m ρ c) q).trans (congrFun (arg m ρ c (Carry.carry14 m ρ c) main_arg11) (ix1 q))

theorem s_v119 : V16 m ρ c main_v119 = h2 m ρ c := by
  refine (W16_arr m ρ c 5).trans ((RegBn.region5 (V15 m ρ) c).trans ?_)
  have hy : V15 m ρ c main_v110_0 = y1 m ρ c := (Carry.keep_v110_0 m ρ c).trans (s_v110_0 m ρ c)
  rw [hy, s_v112 m ρ c, s_v116 m ρ c, s_v117 m ρ c, s_v118 m ρ c]; rfl

def d1 : Mat 100000 128 := relu (addRow (dot (h2 m ρ c) (A m c).Wl1) (A m c).bl1)

theorem s_v121 : V18 m ρ c main_v121 = d1 m ρ c :=
  (W18_arr m ρ c 3).trans ((RegLin.region6 (V17 m ρ) c).trans (congrArg relu (congrArg₂ addRow
    (congrArg₂ dot ((Carry.keep_v119 m ρ c).trans (s_v119 m ρ c)) (arg m ρ c (Carry.carry17 m ρ c) main_arg12))
    (funext fun q => (Host.h6_v120 (W16 m ρ c) q).trans (congrFun (arg m ρ c (Carry.carry16 m ρ c) main_arg13) (ix1 q))))))

theorem s_v123 : V20 m ρ c main_v123 = out0K (GK m ρ c) (A m c) :=
  (W20_arr m ρ c 3).trans ((RegLin.region7 (V19 m ρ) c).trans (congrArg₂ addRow
    (congrArg₂ dot ((Carry.keep_v121 m ρ c).trans (s_v121 m ρ c)) (arg m ρ c (Carry.carry19 m ρ c) main_arg14))
    (funext fun q => (Host.h7_v122 (W18 m ρ c) q).trans (congrFun (arg m ρ c (Carry.carry18 m ρ c) main_arg15) (ix1 q)))))

theorem s_batch : (fun n : Fin 100000 => V21 m ρ c main_v124 (ix2 n 0)) = (A m c).batch :=
  funext fun n => (Host.h8_v124 (W20 m ρ c) n).trans (congrFun (arg m ρ c (Carry.carry20 m ρ c) main_arg3) (ix1 n))

theorem s_v125_0 : V22 m ρ c main_v125_0 = poolSum 64 (out0K (GK m ρ c) (A m c)) (A m c).batch :=
  (W22_arr m ρ c 2).trans ((RegPool.region8_sum (V21 m ρ) c).trans
    (congrArg₂ (poolSum 64) ((Carry.keep_v123_21 m ρ c).trans (s_v123 m ρ c)) (s_batch m ρ c)))
theorem s_v125_1 : V22 m ρ c main_v125_1 = mk2 (fun (_ : Fin 1) g => poolCnt 64 (A m c).batch g) := by
  refine (W22_arr m ρ c 3).trans ((RegPool.region8_cnt (V21 m ρ) c).trans ?_)
  rw [s_batch m ρ c]

theorem s_v130 : V23 m ρ c main_v130 = out1K (GK m ρ c) (A m c) := by
  refine (Host.h9_v130 (W22 m ρ c)).trans ?_
  rw [show W22 m ρ c ⟪main_v125_0⟫ = _ from s_v125_0 m ρ c, show W22 m ρ c ⟪main_v125_1⟫ = _ from s_v125_1 m ρ c]; rfl

def e1 : Mat 64 128 := relu (addRow (dot (out1K (GK m ρ c) (A m c)) (A m c).Wc1) (A m c).bc1)

theorem s_v132 : V24 m ρ c main_v132 = e1 m ρ c :=
  (W24_arr m ρ c 3).trans ((RegLinSmall.region9 (V23 m ρ) c).trans (congrArg relu (congrArg₂ addRow
    (congrArg₂ dot (s_v130 m ρ c) (arg m ρ c (Carry.carry23 m ρ c) main_arg16))
    (funext fun q => (Host.h9_v131 (W22 m ρ c) q).trans (congrFun (arg m ρ c (Carry.carry22 m ρ c) main_arg17) (ix1 q))))))

theorem s_v134 : V26 m ρ c main_v134 = out2K (GK m ρ c) (A m c) :=
  (W26_arr m ρ c 3).trans ((RegLinSmall.region10 (V25 m ρ) c).trans (congrArg₂ addRow
    (congrArg₂ dot ((Carry.keep_v132_25 m ρ c).trans (s_v132 m ρ c)) (arg m ρ c (Carry.carry25 m ρ c) main_arg18))
    (funext fun q => (Host.h10_v133 (W24 m ρ c) q).trans (congrFun (arg m ρ c (Carry.carry24 m ρ c) main_arg19) (ix1 q)))))

theorem out0 : W26 m ρ c ⟪main_v123⟫ = out0K (GK m ρ c) (A m c) := (Carry.keep_v123_26 m ρ c).trans (s_v123 m ρ c)
theorem out1 : W26 m ρ c ⟪main_v130⟫ = out1K (GK m ρ c) (A m c) := (Carry.keep_v130_26 m ρ c).trans (s_v130 m ρ c)
theorem out2 : W26 m ρ c ⟪main_v134⟫ = out2K (GK m ρ c) (A m c) := s_v134 m ρ c

end Cert.KernelIdeal.Chain

end
-- ==== Proof.Alg.lean ====
import proofs.«407449_j27977416966480_1_alg».proof.Proof.Spec
import proofs.«407449_j27977416966480_1_alg».proof.Proof.LibIdealReal

noncomputable section

open scoped BigOperators

namespace Cert.Alg

open Idealize.ShloMosaic Idealize.ShloMosaic.ValueIdx Cert.Spec

theorem c1e5_eq : Spec.c1e5 = ((100000 : ℝ) : EReal) := by
  simp [Spec.c1e5, Ideal.ofBits, Ideal.ieee, -EReal.coe_mul]; norm_num

theorem eps_pos : ∃ e : ℝ, 0 < e ∧ Spec.eps = (e : EReal) := by
  refine ⟨10995116 * (2 : ℝ) ^ (-40 : ℤ), by positivity, ?_⟩
  simp [Spec.eps, Ideal.ofBits, Ideal.ieee, -EReal.coe_mul]

theorem addRow_zero {M C : ℕ} (a : Mat M C) : Spec.addRow a (fun _ => (0 : EReal)) = a := by
  apply mat_ext
  intro p q
  show a (ix2 p q) + 0 = a (ix2 p q)
  exact add_zero _

theorem mean_coe {M C : ℕ} (y : Mat M C) (f : Fin M → Fin C → ℝ) (hf : ∀ p q, y (ix2 p q) = ((f p q : ℝ) : EReal))
    (q : Fin C) : Spec.mean y q = (((∑ p : Fin M, f p q) / 100000 : ℝ) : EReal) := by
  show Ideal.div (∑ p : Fin M, y (ix2 p q)) Spec.c1e5 = _
  rw [c1e5_eq, LibIdealReal.sum_of_eq Finset.univ _ (fun p => f p q) (fun p _ => hf p q),
    LibIdealReal.div_coe _ (by norm_num)]

theorem varR_coe {M C : ℕ} (y : Mat M C) (f : Fin M → Fin C → ℝ) (hf : ∀ p q, y (ix2 p q) = ((f p q : ℝ) : EReal))
    (q : Fin C) :
    Spec.varR y q =
      (((∑ p : Fin M, (f p q - (∑ p : Fin M, f p q) / 100000) * (f p q - (∑ p : Fin M, f p q) / 100000)) / 100000 : ℝ) :
        EReal) := by
  show Ideal.div (∑ p : Fin M, (y (ix2 p q) - Spec.mean y q) * (y (ix2 p q) - Spec.mean y q)) Spec.c1e5 = _
  rw [c1e5_eq, mean_coe y f hf q,
    LibIdealReal.sum_of_eq Finset.univ _
      (fun p => (f p q - (∑ p : Fin M, f p q) / 100000) * (f p q - (∑ p : Fin M, f p q) / 100000))
      (fun p _ => by rw [hf p q, LibIdealReal.sub_coe, LibIdealReal.mul_coe]),
    LibIdealReal.div_coe _ (by norm_num)]

/-- E[y²] − μ² = E[(y − μ)²] column by column: expand the square and use Σ 1 = 100000; needs real entries. -/
theorem var_eq {C : ℕ} (y : Mat 100000 C) (hy : IsReal y) : Spec.varK y = Spec.varR y := by
  choose f hf using hy
  funext q
  rw [varR_coe y f hf q]
  show Ideal.div (∑ p : Fin 100000, y (ix2 p q) * y (ix2 p q)) Spec.c1e5 - Spec.mean y q * Spec.mean y q = _
  rw [c1e5_eq, mean_coe y f hf q,
    LibIdealReal.sum_of_eq Finset.univ _ (fun p => f p q * f p q)
      (fun p _ => by rw [hf p q, LibIdealReal.mul_coe]),
    LibIdealReal.div_coe _ (by norm_num), LibIdealReal.mul_coe, LibIdealReal.sub_coe]
  congr 1
  set S : ℝ := ∑ p : Fin 100000, f p q with hS
  have hexp : ∀ p : Fin 100000,
      (f p q - S / 100000) * (f p q - S / 100000) = f p q * f p q - 2 * (S / 100000) * f p q + S / 100000 * (S / 100000) :=
    fun p => by ring
  rw [Finset.sum_congr rfl (fun p _ => hexp p), Finset.sum_add_distrib, Finset.sum_sub_distrib, ← Finset.mul_sum,
    Finset.sum_const, Finset.card_univ, Fintype.card_fin, nsmul_eq_mul, ← hS]
  push_cast
  ring

theorem isReal_dot {M K C : ℕ} {x : Mat M K} {W : Mat K C} (hx : IsReal x) (hW : IsReal W) : IsReal (Spec.dot x W) := by
  choose fx hfx using hx
  choose fW hfW using hW
  intro p q
  refine ⟨∑ k : Fin K, fx p k * fW k q, ?_⟩
  show ∑ k : Fin K, x (ix2 p k) * W (ix2 k q) = _
  exact LibIdealReal.sum_of_eq Finset.univ _ (fun k => fx p k * fW k q)
    (fun k _ => by rw [hfx p k, hfW k q, LibIdealReal.mul_coe])

theorem isReal_addRow {M C : ℕ} {a : Mat M C} {b : Fin C → EReal} (ha : IsReal a) (hb : IsRealF b) :
    IsReal (Spec.addRow a b) := by
  intro p q
  obtain ⟨r, hr⟩ := ha p q
  obtain ⟨s, hs⟩ := hb q
  refine ⟨r + s, ?_⟩
  show a (ix2 p q) + b q = _
  rw [hr, hs, LibIdealReal.add_coe]

theorem isReal_relu {M C : ℕ} {a : Mat M C} (ha : IsReal a) : IsReal (Spec.relu a) := by
  intro p q
  obtain ⟨r, hr⟩ := ha p q
  refine ⟨max r 0, ?_⟩
  show max (a (ix2 p q)) 0 = _
  rw [hr, LibIdealReal.zero_coe, LibIdealReal.max_coe]

theorem isReal_bn {C : ℕ} {y : Mat 100000 C} {γ β : Fin C → EReal} (hy : IsReal y) (hγ : IsRealF γ) (hβ : IsRealF β) :
    IsReal (Spec.bn y (Spec.mean y) (Spec.varR y) γ β) := by
  choose f hf using hy
  obtain ⟨e, he, hee⟩ := eps_pos
  intro p q
  obtain ⟨g, hg⟩ := hγ q
  obtain ⟨b, hb⟩ := hβ q
  set m : ℝ := (∑ p : Fin 100000, f p q) / 100000 with hm
  set v : ℝ := (∑ p : Fin 100000, (f p q - m) * (f p q - m)) / 100000 with hv
  have hv0 : 0 ≤ v := div_nonneg (Finset.sum_nonneg fun p _ => mul_self_nonneg _) (by norm_num)
  have hpos : 0 < v + e := add_pos_of_nonneg_of_pos hv0 he
  refine ⟨(f p q - m) * (Real.sqrt (v + e))⁻¹ * g + b, ?_⟩
  show (y (ix2 p q) - Spec.mean y q) * Ideal.rsqrt (Spec.varR y q + Spec.eps) * γ q + β q = _
  rw [varR_coe y f hf q, mean_coe y f hf q, hf p q, hee, hg, hb, ← hm, ← hv, LibIdealReal.add_coe,
    Ideal.rsqrt_coe, if_neg (not_lt.mpr hpos.le), if_neg hpos.ne', LibIdealReal.sub_coe, LibIdealReal.mul_coe,
    LibIdealReal.mul_coe, LibIdealReal.add_coe]

end Cert.Alg

end
-- ==== Proof.RefOps.lean ====
import proofs.«407449_j27977416966480_1_alg».proof.ReferenceIdeal
import proofs.«407449_j27977416966480_1_alg».proof.Proof.Spec
import proofs.«407449_j27977416966480_1_alg».proof.Proof.Alg
import proofs.«407449_j27977416966480_1_alg».proof.Proof.LibPlainDot
import Idealize.ShloMosaic.Lib.IdealHost
import Idealize.ShloMosaic.Lib.Pipeline.Value
import Idealize.ShloMosaic.Lib.KernelVsHost

noncomputable section

open scoped BigOperators

namespace Cert.ReferenceIdeal.Ops

open Idealize.ShloMosaic Idealize.ShloMosaic.ValueIdx Cert.ReferenceIdeal Cert.Spec

variable [Cert.ReferenceIdeal.Facts]
open Cert.ReferenceIdeal.Facts₀ Cert.ReferenceIdeal.Facts

-- A row given a leading unit axis reads, at (u, q), its entry q.
theorem row1_apply {α : Type} (z : S128.Idx → α) (u : Fin 1) (q : Fin 128) :
    broadcastInDim S1x128 ![1] bcast_S128_S1x128_1 z (ix2 u q) = z (ix1 q) :=
  broadcastInDim_apply _ _ z (ix2 u q) (ix1 q) fun a => match a with
    | ⟨0, _⟩ => rfl

-- Spread over the rows as well, it reads at (p, q) its entry q.
theorem bc_apply {α : Type} (z : S128.Idx → α) (p : Fin 100000) (q : Fin 128) :
    broadcastInDim S100000x128 ![0, 1] bcast_S1x128_S100000x128_0_1 (broadcastInDim S1x128 ![1] bcast_S128_S1x128_1 z) (ix2 p q)
      = z (ix1 q) :=
  (broadcastInDim_oneRow_apply _ _ p q).trans (row1_apply z 0 q)

-- The sum over the row axis, from zero, is at column q the column sum.
theorem colSum_apply (y : FVec Ideal S100000x128 .f32) (q : Fin 128) :
    Host.reduceAdd y (constant S_ .f32 0x00000000#32) reducesTo_S100000x128_S128_d0 h_S_ (ix1 q) = Spec.colSum y q := by
  rw [hostReduceAdd_apply, Ideal.hostReduceAdd_single reducesTo_S100000x128_S128_d0 (by decide), constant_apply,
    Ideal.ofBits_zero_f32, zero_add]
  refine Finset.sum_congr rfl fun k _ => congrArg y ?_
  funext a
  match a with
  | ⟨0, _⟩ => rfl
  | ⟨1, _⟩ => rfl

theorem ref_dot (x : FVec Ideal S100000x128 .f32) (W : FVec Ideal S128x128 .f32) :
    Host.dotGeneral dot_S100000x128_S128x128_S100000x128_1_0_0_1_n_n none x W = Spec.dot x W := by
  apply mat_ext
  intro p q
  exact LibPlainDot.dotGeneral_apply _ rfl rfl rfl rfl rfl rfl none _ x W p q

theorem ref_addRow (a : FVec Ideal S100000x128 .f32) (b : FVec Ideal S128 .f32) :
    addf a (broadcastInDim S100000x128 ![0, 1] bcast_S1x128_S100000x128_0_1 (broadcastInDim S1x128 ![1] bcast_S128_S1x128_1 b))
      = Spec.addRow a (fun q => b (ix1 q)) := by
  apply mat_ext
  intro p q
  show a (ix2 p q) + _ = a (ix2 p q) + b (ix1 q)
  rw [bc_apply]

theorem ref_relu (a : FVec Ideal S100000x128 .f32) :
    maximumf a (broadcastInDim S100000x128 ![] bcast_S_S100000x128 (constant S_ .f32 0x00000000#32)) = Spec.relu a := by
  funext i
  show max (a i) _ = max (a i) 0
  rw [broadcastInDim_scalar_apply, constant_apply, Ideal.ofBits_zero_f32]

theorem ref_mean (y : FVec Ideal S100000x128 .f32) :
    Host.divf (Host.reduceAdd y (constant S_ .f32 0x00000000#32) reducesTo_S100000x128_S128_d0 h_S_)
        (broadcastInDim S128 ![] bcast_S_S128 (constant S_ .f32 0x47C35000#32))
      = (fun i => Spec.mean y (i 0)) := by
  funext i
  obtain ⟨q, rfl⟩ : ∃ q : Fin 128, i = ix1 q := ⟨i 0, eq_ix1 i⟩
  rw [hostDivf_apply, colSum_apply, broadcastInDim_scalar_apply, constant_apply]
  rfl

-- 100000 − 0 = 100000.
theorem den_apply :
    subf (constant (F := Ideal) S_ .f32 0x47C35000#32) (sitofp .f32 (constantI S_ 32 0#32)) ix0 = Spec.c1e5 := by
  show Spec.c1e5 - (((0#32 : BitVec 32).toInt : ℝ) : EReal) = Spec.c1e5
  rw [show (0#32 : BitVec 32).toInt = 0 by decide, Int.cast_zero, EReal.coe_zero, sub_zero]

-- 100000 − 0 > 0, so the comparison's bit is 1.
theorem cond_apply :
    cmpf (F := Ideal) .ogt (subf (constant S_ .f32 0x47C35000#32) (sitofp .f32 (constantI S_ 32 0#32)))
      (constant S_ .f32 0x00000000#32) ix0 = 1#1 := by
  rw [cmpf_apply, den_apply, constant_apply, Ideal.ofBits_zero_f32, Alg.c1e5_eq]
  show BitVec.ofBool (decide ((0 : EReal) < ((100000 : ℝ) : EReal))) = 1#1
  rw [decide_eq_true (EReal.coe_pos.mpr (by norm_num))]
  rfl

-- The quotient is the branch taken because 100000 − 0 > 0; under the sum the spread mean reads the column mean.
theorem ref_var (y : FVec Ideal S100000x128 .f32) :
    select
        (broadcastInDim S128 ![] bcast_S_S128
          (cmpf (F := Ideal) .ogt (subf (constant S_ .f32 0x47C35000#32) (sitofp .f32 (constantI S_ 32 0#32)))
            (constant S_ .f32 0x00000000#32)))
        (Host.divf
          (Host.reduceAdd
            (mulf
              (subf y
                (broadcastInDim S100000x128 ![0, 1] bcast_S1x128_S100000x128_0_1
                  (Host.divf
                    (broadcastInDim S1x128 ![1] bcast_S128_S1x128_1
                      (Host.reduceAdd y (constant S_ .f32 0x00000000#32) reducesTo_S100000x128_S128_d0 h_S_))
                    (broadcastInDim S1x128 ![] bcast_S_S1x128 (constant S_ .f32 0x47C35000#32)))))
              (subf y
                (broadcastInDim S100000x128 ![0, 1] bcast_S1x128_S100000x128_0_1
                  (Host.divf
                    (broadcastInDim S1x128 ![1] bcast_S128_S1x128_1
                      (Host.reduceAdd y (constant S_ .f32 0x00000000#32) reducesTo_S100000x128_S128_d0 h_S_))
                    (broadcastInDim S1x128 ![] bcast_S_S1x128 (constant S_ .f32 0x47C35000#32))))))
            (constant S_ .f32 0x00000000#32) reducesTo_S100000x128_S128_d0 h_S_)
          (broadcastInDim S128 ![] bcast_S_S128
            (subf (constant S_ .f32 0x47C35000#32) (sitofp .f32 (constantI S_ 32 0#32)))))
        (broadcastInDim S128 ![] bcast_S_S128 (id (constant S_ .f32 0x7FC00000#32)))
      = (fun i => Spec.varR y (i 0)) := by
  funext i
  obtain ⟨q, rfl⟩ : ∃ q : Fin 128, i = ix1 q := ⟨i 0, eq_ix1 i⟩
  rw [select_apply, broadcastInDim_scalar_apply, cond_apply, select_one, hostDivf_apply, colSum_apply,
    broadcastInDim_scalar_apply, den_apply]
  show Ideal.div (∑ p : Fin 100000, _) Spec.c1e5 = Ideal.div (∑ p : Fin 100000, _) Spec.c1e5
  refine congrArg (fun s => Ideal.div s Spec.c1e5) (Finset.sum_congr rfl fun p _ => ?_)
  show (y (ix2 p q) - _) * (y (ix2 p q) - _) = (y (ix2 p q) - Spec.mean y q) * (y (ix2 p q) - Spec.mean y q)
  rw [broadcastInDim_oneRow_apply, hostDivf_apply, row1_apply, colSum_apply, broadcastInDim_scalar_apply, constant_apply]
  rfl

theorem ref_bn (y : FVec Ideal S100000x128 .f32) (mu v γ β : FVec Ideal S128 .f32) :
    addf
        (mulf
          (mulf
            (subf y
              (broadcastInDim S100000x128 ![0, 1] bcast_S1x128_S100000x128_0_1 (broadcastInDim S1x128 ![1] bcast_S128_S1x128_1 mu)))
            (broadcastInDim S100000x128 ![0, 1] bcast_S1x128_S100000x128_0_1
              (broadcastInDim S1x128 ![1] bcast_S128_S1x128_1
                (Host.rsqrt (addf v (broadcastInDim S128 ![] bcast_S_S128 (constant S_ .f32 0x3727C5AC#32)))))))
          (broadcastInDim S100000x128 ![0, 1] bcast_S1x128_S100000x128_0_1 (broadcastInDim S1x128 ![1] bcast_S128_S1x128_1 γ)))
        (broadcastInDim S100000x128 ![0, 1] bcast_S1x128_S100000x128_0_1 (broadcastInDim S1x128 ![1] bcast_S128_S1x128_1 β))
      = Spec.bn y (fun q => mu (ix1 q)) (fun q => v (ix1 q)) (fun q => γ (ix1 q)) (fun q => β (ix1 q)) := by
  apply mat_ext
  intro p q
  show (y (ix2 p q) - _) * _ * _ + _ = (y (ix2 p q) - mu (ix1 q)) * Ideal.rsqrt (v (ix1 q) + Spec.eps) * γ (ix1 q) + β (ix1 q)
  rw [bc_apply, bc_apply, bc_apply, bc_apply]
  show _ * Ideal.rsqrt (v (ix1 q) + _) * _ + _ = _
  rw [broadcastInDim_scalar_apply, constant_apply]
  rfl

end Cert.ReferenceIdeal.Ops

end
-- ==== Proof.RefOpsList.lean ====
import proofs.«407449_j27977416966480_1_alg».proof.ReferenceIdeal

noncomputable section

namespace Cert.ReferenceIdeal.Run

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

set_option maxRecDepth 16384 in
set_option maxHeartbeats 4000000 in
abbrev opsA : List (HloOp τ sig (Elt F)) :=
  [ StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.unary main_arg2 main_v4 (extractStridedSlice S1600000x1 ![0, 1] · slices_S1600000x2_S1600000x1_0_1),
    StableHlo.reshape main_v4 main_v5 rfl shapeCasts_S1600000x1_S1600000 ]

set_option maxRecDepth 16384 in
set_option maxHeartbeats 4000000 in
abbrev opsB0 : List (HloOp τ sig (Elt F)) :=
  [ StableHlo.binary main_arg0 main_arg4 main_v6 (fun l r => Host.dotGeneral dot_S100000x128_S128x128_S100000x128_1_0_0_1_n_n none l r) ]

set_option maxRecDepth 16384 in
set_option maxHeartbeats 4000000 in
abbrev opsC0 : List (HloOp τ sig (Elt F)) :=
  [ StableHlo.nullary main_cst (constant S_ .f32 0x00000000#32),
    StableHlo.unary main_cst main_v7 (broadcastInDim S100000 ![] bcast_S_S100000),
    StableHlo.unary main_v3 main_v8 (broadcastInDim S1600000x1 ![0] bcast_S1600000_S1600000x1_0),
    StableHlo.ternary main_v7 main_v8 main_v5 main_v9 (fun x i u => Host.scatterAdd scatter_S100000_S1600000x1_S1600000_n_0_0_1 x i u),
    StableHlo.nullary main_cst_0 (constant S_ .f32 0x3F800000#32),
    StableHlo.unary main_cst_0 main_v10 (broadcastInDim S100000 ![] bcast_S_S100000),
    StableHlo.binary main_v9 main_v10 main_v11 addf,
    StableHlo.nullary main_cst_1 (constant S_ .f32 0x00000000#32),
    StableHlo.unary main_cst_1 main_v12 (broadcastInDim S100000 ![] bcast_S_S100000),
    StableHlo.binary main_v11 main_v12 main_v13 (cmpf .ogt),
    StableHlo.unary main_v11 main_v14 Host.rsqrt,
    StableHlo.nullary main_cst_2 (constant S_ .f32 0x00000000#32),
    StableHlo.TRef.unary (StableHlo.TRef.of main_cst_2 : StableHlo.TRef sig ⟨S_, .f32⟩) main_call0.v0 id,
    StableHlo.TRef.unary main_call0.v0 main_call0.v1 (broadcastInDim S100000 ![] bcast_S_S100000),
    StableHlo.TRef.ternary (StableHlo.TRef.of main_v13 : StableHlo.TRef sig ⟨S100000, .i1⟩) (StableHlo.TRef.of main_v14 : StableHlo.TRef sig ⟨S100000, .f32⟩) main_call0.v1 main_call0.v2 select,
    StableHlo.nullary main_c (constantI S_ 32 0#32),
    StableHlo.unary main_c main_v16 (broadcastInDim S1600000 ![] bcast_S_S1600000),
    StableHlo.binary main_v1 main_v16 main_v17 (cmpi .slt),
    StableHlo.nullary main_c_3 (constantI S_ 32 100000#32),
    StableHlo.unary main_c_3 main_v18 (broadcastInDim S1600000 ![] bcast_S_S1600000),
    StableHlo.binary main_v1 main_v18 main_v19 addi,
    StableHlo.ternary main_v17 main_v19 main_v1 main_v20 select,
    StableHlo.unary main_v20 main_v21 (broadcastInDim S1600000x1 ![0] bcast_S1600000_S1600000x1_0),
    StableHlo.binary main_v15 main_v21 main_v22 (fun x i => Host.gather gather_S100000_S1600000x1_S1600000_n_0_n_n_0_1_1 x i),
    StableHlo.binary main_v22 main_v5 main_v23 mulf,
    StableHlo.nullary main_c_4 (constantI S_ 32 0#32),
    StableHlo.unary main_c_4 main_v24 (broadcastInDim S1600000 ![] bcast_S_S1600000),
    StableHlo.binary main_v3 main_v24 main_v25 (cmpi .slt),
    StableHlo.nullary main_c_5 (constantI S_ 32 100000#32),
    StableHlo.unary main_c_5 main_v26 (broadcastInDim S1600000 ![] bcast_S_S1600000),
    StableHlo.binary main_v3 main_v26 main_v27 addi,
    StableHlo.ternary main_v25 main_v27 main_v3 main_v28 select,
    StableHlo.unary main_v28 main_v29 (broadcastInDim S1600000x1 ![0] bcast_S1600000_S1600000x1_0),
    StableHlo.binary main_v15 main_v29 main_v30 (fun x i => Host.gather gather_S100000_S1600000x1_S1600000_n_0_n_n_0_1_1 x i),
    StableHlo.binary main_v23 main_v30 main_v31 mulf,
    StableHlo.unary main_v31 main_v32 (broadcastInDim S1600000x1 ![0] bcast_S1600000_S1600000x1_0),
    StableHlo.nullary main_c_6 (constantI S_ 32 0#32),
    StableHlo.unary main_c_6 main_v33 (broadcastInDim S1600000 ![] bcast_S_S1600000),
    StableHlo.binary main_v1 main_v33 main_v34 (cmpi .slt),
    StableHlo.nullary main_c_7 (constantI S_ 32 100000#32),
    StableHlo.unary main_c_7 main_v35 (broadcastInDim S1600000 ![] bcast_S_S1600000),
    StableHlo.binary main_v1 main_v35 main_v36 addi,
    StableHlo.ternary main_v34 main_v36 main_v1 main_v37 select,
    StableHlo.unary main_v37 main_v38 (broadcastInDim S1600000x1 ![0] bcast_S1600000_S1600000x1_0),
    StableHlo.binary main_v6 main_v38 main_v39 (fun x i => Host.gather gather_S100000x128_S1600000x1_S1600000x128_1_0_n_n_0_1_1128 x i),
    StableHlo.unary main_v32 main_v40 (broadcastInDim S1600000x128 ![0, 1] bcast_S1600000x1_S1600000x128_0_1),
    StableHlo.binary main_v40 main_v39 main_v41 mulf,
    StableHlo.nullary main_cst_8 (constant S_ .f32 0x00000000#32),
    StableHlo.unary main_cst_8 main_v42 (broadcastInDim S100000x128 ![] bcast_S_S100000x128),
    StableHlo.unary main_v3 main_v43 (broadcastInDim S1600000x1 ![0] bcast_S1600000_S1600000x1_0),
    StableHlo.ternary main_v42 main_v43 main_v41 main_v44 (fun x i u => Host.scatterAdd scatter_S100000x128_S1600000x1_S1600000x128_1_0_0_1 x i u),
    StableHlo.binary main_v15 main_v15 main_v45 mulf,
    StableHlo.unary main_v45 main_v46 (broadcastInDim S100000x1 ![0] bcast_S100000_S100000x1_0),
    StableHlo.unary main_v46 main_v47 (broadcastInDim S100000x128 ![0, 1] bcast_S100000x1_S100000x128_0_1),
    StableHlo.binary main_v47 main_v6 main_v48 mulf,
    StableHlo.binary main_v44 main_v48 main_v49 addf ]

set_option maxRecDepth 16384 in
set_option maxHeartbeats 4000000 in
abbrev opsD0 : List (HloOp τ sig (Elt F)) :=
  [ StableHlo.unary main_arg5 main_v50 (broadcastInDim S1x128 ![1] bcast_S128_S1x128_1),
    StableHlo.unary main_v50 main_v51 (broadcastInDim S100000x128 ![0, 1] bcast_S1x128_S100000x128_0_1),
    StableHlo.binary main_v49 main_v51 main_v52 addf,
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v52 : StableHlo.TRef sig ⟨S100000x128, .f32⟩) main_call1.v0 main_call1.v1 maximumf,
    StableHlo.nullary main_cst_9 (constant S_ .f32 0x00000000#32),
    StableHlo.binary main_v53 main_cst_9 main_v54 (fun x v => Host.reduceAdd x v reducesTo_S100000x128_S128_d0 h_S_),
    StableHlo.nullary main_cst_10 (constant S_ .f32 0x47C35000#32),
    StableHlo.unary main_cst_10 main_v55 (broadcastInDim S128 ![] bcast_S_S128),
    StableHlo.binary main_v54 main_v55 main_v56 Host.divf,
    StableHlo.nullary main_c_11 (constantI S_ 32 0#32),
    StableHlo.TRef.nullary main_call2.cst (constant S_ .f32 0x00000000#32),
    StableHlo.TRef.binary (StableHlo.TRef.of main_v53 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (StableHlo.TRef.of main_v53 : StableHlo.TRef sig ⟨S100000x128, .f32⟩) main_call2.v4 main_call2.v5 subf,
    StableHlo.TRef.binary main_call2.v5 main_call2.v5 main_call2.v6 mulf,
    StableHlo.TRef.unary (StableHlo.TRef.of main_c_11 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v56 main_v58 (broadcastInDim S1x128 ![1] bcast_S128_S1x128_1),
    StableHlo.unary main_v58 main_v59 (broadcastInDim S100000x128 ![0, 1] bcast_S1x128_S100000x128_0_1),
    StableHlo.binary main_v53 main_v59 main_v60 subf,
    StableHlo.nullary main_cst_12 (constant S_ .f32 0x3727C5AC#32),
    StableHlo.unary main_cst_12 main_v61 (broadcastInDim S128 ![] bcast_S_S128),
    StableHlo.binary main_v57 main_v61 main_v62 addf,
    StableHlo.unary main_v62 main_v63 Host.rsqrt,
    StableHlo.unary main_v63 main_v64 (broadcastInDim S1x128 ![1] bcast_S128_S1x128_1),
    StableHlo.unary main_v64 main_v65 (broadcastInDim S100000x128 ![0, 1] bcast_S1x128_S100000x128_0_1),
    StableHlo.binary main_v60 main_v65 main_v66 mulf,
    StableHlo.unary main_arg6 main_v67 (broadcastInDim S1x128 ![1] bcast_S128_S1x128_1),
    StableHlo.unary main_v67 main_v68 (broadcastInDim S100000x128 ![0, 1] bcast_S1x128_S100000x128_0_1),
    StableHlo.binary main_v66 main_v68 main_v69 mulf,
    StableHlo.unary main_arg7 main_v70 (broadcastInDim S1x128 ![1] bcast_S128_S1x128_1),
    StableHlo.unary main_v70 main_v71 (broadcastInDim S100000x128 ![0, 1] bcast_S1x128_S100000x128_0_1),
    StableHlo.binary main_v69 main_v71 main_v72 addf ]

set_option maxRecDepth 16384 in
set_option maxHeartbeats 4000000 in
abbrev opsB1 : List (HloOp τ sig (Elt F)) :=
  [ StableHlo.binary main_v72 main_arg8 main_v73 (fun l r => Host.dotGeneral dot_S100000x128_S128x128_S100000x128_1_0_0_1_n_n none l r) ]

set_option maxRecDepth 16384 in
set_option maxHeartbeats 4000000 in
abbrev opsC1 : List (HloOp τ sig (Elt F)) :=
  [ StableHlo.nullary main_cst_13 (constant S_ .f32 0x00000000#32),
    StableHlo.unary main_cst_13 main_v74 (broadcastInDim S100000 ![] bcast_S_S100000),
    StableHlo.unary main_v3 main_v75 (broadcastInDim S1600000x1 ![0] bcast_S1600000_S1600000x1_0),
    StableHlo.ternary main_v74 main_v75 main_v5 main_v76 (fun x i u => Host.scatterAdd scatter_S100000_S1600000x1_S1600000_n_0_0_1 x i u),
    StableHlo.nullary main_cst_14 (constant S_ .f32 0x3F800000#32),
    StableHlo.unary main_cst_14 main_v77 (broadcastInDim S100000 ![] bcast_S_S100000),
    StableHlo.binary main_v76 main_v77 main_v78 addf,
    StableHlo.nullary main_cst_15 (constant S_ .f32 0x00000000#32),
    StableHlo.unary main_cst_15 main_v79 (broadcastInDim S100000 ![] bcast_S_S100000),
    StableHlo.binary main_v78 main_v79 main_v80 (cmpf .ogt),
    StableHlo.unary main_v78 main_v81 Host.rsqrt,
    StableHlo.nullary main_cst_16 (constant S_ .f32 0x00000000#32),
    StableHlo.TRef.unary (StableHlo.TRef.of main_cst_16 : StableHlo.TRef sig ⟨S_, .f32⟩) main_call3.v0 id,
    StableHlo.TRef.unary main_call3.v0 main_call3.v1 (broadcastInDim S100000 ![] bcast_S_S100000),
    StableHlo.TRef.ternary (StableHlo.TRef.of main_v80 : StableHlo.TRef sig ⟨S100000, .i1⟩) (StableHlo.TRef.of main_v81 : StableHlo.TRef sig ⟨S100000, .f32⟩) main_call3.v1 main_call3.v2 select,
    StableHlo.nullary main_c_17 (constantI S_ 32 0#32),
    StableHlo.unary main_c_17 main_v83 (broadcastInDim S1600000 ![] bcast_S_S1600000),
    StableHlo.binary main_v1 main_v83 main_v84 (cmpi .slt),
    StableHlo.nullary main_c_18 (constantI S_ 32 100000#32),
    StableHlo.unary main_c_18 main_v85 (broadcastInDim S1600000 ![] bcast_S_S1600000),
    StableHlo.binary main_v1 main_v85 main_v86 addi,
    StableHlo.ternary main_v84 main_v86 main_v1 main_v87 select,
    StableHlo.unary main_v87 main_v88 (broadcastInDim S1600000x1 ![0] bcast_S1600000_S1600000x1_0),
    StableHlo.binary main_v82 main_v88 main_v89 (fun x i => Host.gather gather_S100000_S1600000x1_S1600000_n_0_n_n_0_1_1 x i),
    StableHlo.binary main_v89 main_v5 main_v90 mulf,
    StableHlo.nullary main_c_19 (constantI S_ 32 0#32),
    StableHlo.unary main_c_19 main_v91 (broadcastInDim S1600000 ![] bcast_S_S1600000),
    StableHlo.binary main_v3 main_v91 main_v92 (cmpi .slt),
    StableHlo.nullary main_c_20 (constantI S_ 32 100000#32),
    StableHlo.unary main_c_20 main_v93 (broadcastInDim S1600000 ![] bcast_S_S1600000),
    StableHlo.binary main_v3 main_v93 main_v94 addi,
    StableHlo.ternary main_v92 main_v94 main_v3 main_v95 select,
    StableHlo.unary main_v95 main_v96 (broadcastInDim S1600000x1 ![0] bcast_S1600000_S1600000x1_0),
    StableHlo.binary main_v82 main_v96 main_v97 (fun x i => Host.gather gather_S100000_S1600000x1_S1600000_n_0_n_n_0_1_1 x i),
    StableHlo.binary main_v90 main_v97 main_v98 mulf,
    StableHlo.unary main_v98 main_v99 (broadcastInDim S1600000x1 ![0] bcast_S1600000_S1600000x1_0),
    StableHlo.nullary main_c_21 (constantI S_ 32 0#32),
    StableHlo.unary main_c_21 main_v100 (broadcastInDim S1600000 ![] bcast_S_S1600000),
    StableHlo.binary main_v1 main_v100 main_v101 (cmpi .slt),
    StableHlo.nullary main_c_22 (constantI S_ 32 100000#32),
    StableHlo.unary main_c_22 main_v102 (broadcastInDim S1600000 ![] bcast_S_S1600000),
    StableHlo.binary main_v1 main_v102 main_v103 addi,
    StableHlo.ternary main_v101 main_v103 main_v1 main_v104 select,
    StableHlo.unary main_v104 main_v105 (broadcastInDim S1600000x1 ![0] bcast_S1600000_S1600000x1_0),
    StableHlo.binary main_v73 main_v105 main_v106 (fun x i => Host.gather gather_S100000x128_S1600000x1_S1600000x128_1_0_n_n_0_1_1128 x i),
    StableHlo.unary main_v99 main_v107 (broadcastInDim S1600000x128 ![0, 1] bcast_S1600000x1_S1600000x128_0_1),
    StableHlo.binary main_v107 main_v106 main_v108 mulf,
    StableHlo.nullary main_cst_23 (constant S_ .f32 0x00000000#32),
    StableHlo.unary main_cst_23 main_v109 (broadcastInDim S100000x128 ![] bcast_S_S100000x128),
    StableHlo.unary main_v3 main_v110 (broadcastInDim S1600000x1 ![0] bcast_S1600000_S1600000x1_0),
    StableHlo.ternary main_v109 main_v110 main_v108 main_v111 (fun x i u => Host.scatterAdd scatter_S100000x128_S1600000x1_S1600000x128_1_0_0_1 x i u),
    StableHlo.binary main_v82 main_v82 main_v112 mulf,
    StableHlo.unary main_v112 main_v113 (broadcastInDim S100000x1 ![0] bcast_S100000_S100000x1_0),
    StableHlo.unary main_v113 main_v114 (broadcastInDim S100000x128 ![0, 1] bcast_S100000x1_S100000x128_0_1),
    StableHlo.binary main_v114 main_v73 main_v115 mulf,
    StableHlo.binary main_v111 main_v115 main_v116 addf ]

set_option maxRecDepth 16384 in
set_option maxHeartbeats 4000000 in
abbrev opsD1 : List (HloOp τ sig (Elt F)) :=
  [ StableHlo.unary main_arg9 main_v117 (broadcastInDim S1x128 ![1] bcast_S128_S1x128_1),
    StableHlo.unary main_v117 main_v118 (broadcastInDim S100000x128 ![0, 1] bcast_S1x128_S100000x128_0_1),
    StableHlo.binary main_v116 main_v118 main_v119 addf,
    StableHlo.TRef.nullary main_call4.cst (constant S_ .f32 0x00000000#32),
    StableHlo.TRef.unary main_call4.cst main_call4.v0 (broadcastInDim S100000x128 ![] bcast_S_S100000x128),
    StableHlo.TRef.binary (StableHlo.TRef.of main_v119 : StableHlo.TRef sig ⟨S100000x128, .f32⟩) main_call4.v0 main_call4.v1 maximumf,
    StableHlo.nullary main_cst_24 (constant S_ .f32 0x00000000#32),
    StableHlo.binary main_v120 main_cst_24 main_v121 (fun x v => Host.reduceAdd x v reducesTo_S100000x128_S128_d0 h_S_),
    StableHlo.nullary main_cst_25 (constant S_ .f32 0x47C35000#32),
    StableHlo.unary main_cst_25 main_v122 (broadcastInDim S128 ![] bcast_S_S128),
    StableHlo.binary main_v121 main_v122 main_v123 Host.divf,
    StableHlo.nullary main_c_26 (constantI S_ 32 0#32),
    StableHlo.TRef.nullary main_call5.cst (constant S_ .f32 0x00000000#32),
    StableHlo.TRef.binary (StableHlo.TRef.of main_v120 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (StableHlo.TRef.of main_v120 : StableHlo.TRef sig ⟨S100000x128, .f32⟩) main_call5.v4 main_call5.v5 subf,
    StableHlo.TRef.binary main_call5.v5 main_call5.v5 main_call5.v6 mulf,
    StableHlo.TRef.unary (StableHlo.TRef.of main_c_26 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v123 main_v125 (broadcastInDim S1x128 ![1] bcast_S128_S1x128_1),
    StableHlo.unary main_v125 main_v126 (broadcastInDim S100000x128 ![0, 1] bcast_S1x128_S100000x128_0_1),
    StableHlo.binary main_v120 main_v126 main_v127 subf,
    StableHlo.nullary main_cst_27 (constant S_ .f32 0x3727C5AC#32),
    StableHlo.unary main_cst_27 main_v128 (broadcastInDim S128 ![] bcast_S_S128),
    StableHlo.binary main_v124 main_v128 main_v129 addf,
    StableHlo.unary main_v129 main_v130 Host.rsqrt,
    StableHlo.unary main_v130 main_v131 (broadcastInDim S1x128 ![1] bcast_S128_S1x128_1),
    StableHlo.unary main_v131 main_v132 (broadcastInDim S100000x128 ![0, 1] bcast_S1x128_S100000x128_0_1),
    StableHlo.binary main_v127 main_v132 main_v133 mulf,
    StableHlo.unary main_arg10 main_v134 (broadcastInDim S1x128 ![1] bcast_S128_S1x128_1),
    StableHlo.unary main_v134 main_v135 (broadcastInDim S100000x128 ![0, 1] bcast_S1x128_S100000x128_0_1),
    StableHlo.binary main_v133 main_v135 main_v136 mulf,
    StableHlo.unary main_arg11 main_v137 (broadcastInDim S1x128 ![1] bcast_S128_S1x128_1),
    StableHlo.unary main_v137 main_v138 (broadcastInDim S100000x128 ![0, 1] bcast_S1x128_S100000x128_0_1),
    StableHlo.binary main_v136 main_v138 main_v139 addf ]

set_option maxRecDepth 16384 in
set_option maxHeartbeats 4000000 in
abbrev opsE : List (HloOp τ sig (Elt F)) :=
  [ StableHlo.binary main_v139 main_arg12 main_v140 (fun l r => Host.dotGeneral dot_S100000x128_S128x128_S100000x128_1_0_0_1_n_n none l r),
    StableHlo.unary main_arg13 main_v141 (broadcastInDim S1x128 ![1] bcast_S128_S1x128_1),
    StableHlo.unary main_v141 main_v142 (broadcastInDim S100000x128 ![0, 1] bcast_S1x128_S100000x128_0_1),
    StableHlo.binary main_v140 main_v142 main_v143 addf,
    StableHlo.TRef.nullary main_call6.cst (constant S_ .f32 0x00000000#32),
    StableHlo.TRef.unary main_call6.cst main_call6.v0 (broadcastInDim S100000x128 ![] bcast_S_S100000x128),
    StableHlo.TRef.binary (StableHlo.TRef.of main_v143 : StableHlo.TRef sig ⟨S100000x128, .f32⟩) main_call6.v0 main_call6.v1 maximumf,
    StableHlo.binary main_v144 main_arg14 main_v145 (fun l r => Host.dotGeneral dot_S100000x128_S128x128_S100000x128_1_0_0_1_n_n none l r),
    StableHlo.unary main_arg15 main_v146 (broadcastInDim S1x128 ![1] bcast_S128_S1x128_1),
    StableHlo.unary main_v146 main_v147 (broadcastInDim S100000x128 ![0, 1] bcast_S1x128_S100000x128_0_1),
    StableHlo.binary main_v145 main_v147 main_v148 addf ]

set_option maxRecDepth 16384 in
set_option maxHeartbeats 4000000 in
abbrev opsF : List (HloOp τ sig (Elt F)) :=
  [ StableHlo.nullary main_cst_28 (constant S_ .f32 0x3F800000#32),
    StableHlo.unary main_cst_28 main_v149 (broadcastInDim S100000 ![] bcast_S_S100000),
    StableHlo.nullary main_cst_29 (constant S_ .f32 0x00000000#32),
    StableHlo.unary main_cst_29 main_v150 (broadcastInDim S64 ![] bcast_S_S64),
    StableHlo.unary main_arg3 main_v151 (broadcastInDim S100000x1 ![0] bcast_S100000_S100000x1_0),
    StableHlo.ternary main_v150 main_v151 main_v149 main_v152 (fun x i u => Host.scatterAdd scatter_S64_S100000x1_S100000_n_0_0_1 x i u),
    StableHlo.nullary main_cst_30 (constant S_ .f32 0x00000000#32),
    StableHlo.unary main_cst_30 main_v153 (broadcastInDim S64x128 ![] bcast_S_S64x128),
    StableHlo.unary main_arg3 main_v154 (broadcastInDim S100000x1 ![0] bcast_S100000_S100000x1_0),
    StableHlo.ternary main_v153 main_v154 main_v148 main_v155 (fun x i u => Host.scatterAdd scatter_S64x128_S100000x1_S100000x128_1_0_0_1 x i u),
    StableHlo.nullary main_cst_31 (constant S_ .f32 0x3F800000#32),
    StableHlo.unary main_cst_31 main_v156 (broadcastInDim S64 ![] bcast_S_S64),
    StableHlo.binary main_v152 main_v156 main_v157 maximumf,
    StableHlo.unary main_v157 main_v158 (broadcastInDim S64x1 ![0] bcast_S64_S64x1_0),
    StableHlo.unary main_v158 main_v159 (broadcastInDim S64x128 ![0, 1] bcast_S64x1_S64x128_0_1),
    StableHlo.binary main_v155 main_v159 main_v160 Host.divf ]

set_option maxRecDepth 16384 in
set_option maxHeartbeats 4000000 in
abbrev opsH : List (HloOp τ sig (Elt F)) :=
  [ StableHlo.binary main_v160 main_arg16 main_v161 (fun l r => Host.dotGeneral dot_S64x128_S128x128_S64x128_1_0_0_1_n_n none l r),
    StableHlo.unary main_arg17 main_v162 (broadcastInDim S1x128 ![1] bcast_S128_S1x128_1),
    StableHlo.unary main_v162 main_v163 (broadcastInDim S64x128 ![0, 1] bcast_S1x128_S64x128_0_1),
    StableHlo.binary main_v161 main_v163 main_v164 addf,
    StableHlo.TRef.nullary main_call7.cst (constant S_ .f32 0x00000000#32),
    StableHlo.TRef.unary main_call7.cst main_call7.v0 (broadcastInDim S64x128 ![] bcast_S_S64x128),
    StableHlo.TRef.binary (StableHlo.TRef.of main_v164 : StableHlo.TRef sig ⟨S64x128, .f32⟩) main_call7.v0 main_call7.v1 maximumf,
    StableHlo.binary main_v165 main_arg18 main_v166 (fun l r => Host.dotGeneral dot_S64x128_S128x2_S64x2_1_0_0_1_n_n none l r),
    StableHlo.unary main_arg19 main_v167 (broadcastInDim S1x2 ![1] bcast_S2_S1x2_1),
    StableHlo.unary main_v167 main_v168 (broadcastInDim S64x2 ![0, 1] bcast_S1x2_S64x2_0_1),
    StableHlo.binary main_v166 main_v168 main_v169 addf ]

abbrev ops : List (HloOp τ sig (Elt F)) := opsA ++ opsB0 ++ opsC0 ++ opsD0 ++ opsB1 ++ opsC1 ++ opsD1 ++ opsE ++ opsF ++ opsH

abbrev opsW : List (Ref sig .tc) :=
  [main_v0, main_v1, main_v2, main_v3, main_v4, main_v5, main_v6, main_cst, main_v7, main_v8, main_v9, main_cst_0, main_v10, main_v11, main_cst_1,
  main_v12, main_v13, main_v14, main_cst_2, main_call0_v0, main_call0_v1, main_v15, main_c, main_v16, main_v17, main_c_3, main_v18, main_v19, main_v20,
  main_v21, main_v22, main_v23, main_c_4, main_v24, main_v25, main_c_5, main_v26, main_v27, main_v28, main_v29, main_v30, main_v31, main_v32, main_c_6,
  main_v33, main_v34, main_c_7, main_v35, main_v36, main_v37, main_v38, main_v39, main_v40, main_v41, main_cst_8, main_v42, main_v43, main_v44,
  main_v45, main_v46, main_v47, main_v48, main_v49, main_v50, main_v51, main_v52, main_call1_cst, main_call1_v0, main_v53, main_cst_9, main_v54,
  main_cst_10, main_v55, main_v56, main_c_11, main_call2_cst, main_call2_v0, main_call2_v1, main_call2_cst_0, main_call2_v2, main_call2_v3,
  main_call2_v4, main_call2_v5, main_call2_v6, main_call2_v7, main_call2_cst_1, main_call2_v8, main_call2_cst_2, main_call2_v9, main_call2_v10,
  main_call2_v11, main_call2_cst_3, main_call2_v12, main_call2_cst_4, main_call2_call0_v0, main_call2_call0_v1, main_v57, main_v58, main_v59, main_v60,
  main_cst_12, main_v61, main_v62, main_v63, main_v64, main_v65, main_v66, main_v67, main_v68, main_v69, main_v70, main_v71, main_v72, main_v73,
  main_cst_13, main_v74, main_v75, main_v76, main_cst_14, main_v77, main_v78, main_cst_15, main_v79, main_v80, main_v81, main_cst_16, main_call3_v0,
  main_call3_v1, main_v82, main_c_17, main_v83, main_v84, main_c_18, main_v85, main_v86, main_v87, main_v88, main_v89, main_v90, main_c_19, main_v91,
  main_v92, main_c_20, main_v93, main_v94, main_v95, main_v96, main_v97, main_v98, main_v99, main_c_21, main_v100, main_v101, main_c_22, main_v102,
  main_v103, main_v104, main_v105, main_v106, main_v107, main_v108, main_cst_23, main_v109, main_v110, main_v111, main_v112, main_v113, main_v114,
  main_v115, main_v116, main_v117, main_v118, main_v119, main_call4_cst, main_call4_v0, main_v120, main_cst_24, main_v121, main_cst_25, main_v122,
  main_v123, main_c_26, main_call5_cst, main_call5_v0, main_call5_v1, main_call5_cst_0, main_call5_v2, main_call5_v3, main_call5_v4, main_call5_v5,
  main_call5_v6, main_call5_v7, main_call5_cst_1, main_call5_v8, main_call5_cst_2, main_call5_v9, main_call5_v10, main_call5_v11, main_call5_cst_3,
  main_call5_v12, main_call5_cst_4, main_call5_call0_v0, main_call5_call0_v1, main_v124, main_v125, main_v126, main_v127, main_cst_27, main_v128,
  main_v129, main_v130, main_v131, main_v132, main_v133, main_v134, main_v135, main_v136, main_v137, main_v138, main_v139, main_v140, main_v141,
  main_v142, main_v143, main_call6_cst, main_call6_v0, main_v144, main_v145, main_v146, main_v147, main_v148, main_cst_28, main_v149, main_cst_29,
  main_v150, main_v151, main_v152, main_cst_30, main_v153, main_v154, main_v155, main_cst_31, main_v156, main_v157, main_v158, main_v159, main_v160,
  main_v161, main_v162, main_v163, main_v164, main_call7_cst, main_call7_v0, main_v165, main_v166, main_v167, main_v168, main_v169]

end Cert.ReferenceIdeal.Run

end
-- ==== Proof.RefRun.lean ====
import proofs.«407449_j27977416966480_1_alg».proof.Proof.RefOpsList
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- What is asked of an operation and the buffer listed for it. -/
structure Lists (op : HloOp τ sig (Elt F)) (y : Ref sig .tc) : Prop where
  writes : op.writes = {Proc.devRef .tc y}
  bufs : op.bufs ⊆ tcRefs τ sig
  fresh : op.fresh = ∅

set_option maxHeartbeats 4000000 in
/-- `opsW` lists, in order, the buffer each of the 258 operations writes. -/
theorem ops_lists : List.Forall₂ Lists (ops (F := F)) opsW := by
  repeat first
    | exact .nil
    | refine .cons ⟨rfl, by simp only [nullary_bufs_sub, unary_bufs_sub, binary_bufs_sub, ternary_bufs_sub,
        reshape_bufs_sub], rfl⟩ ?_

theorem Lists.of_mem : ∀ {L : List (HloOp τ sig (Elt F))} {Ws : List (Ref sig .tc)}, List.Forall₂ Lists L Ws →
    ∀ op ∈ L, ∃ y ∈ Ws, Lists op y
  | _, _, .nil, _, h => nomatch h
  | _, _, .cons h t, op, hm => by
    rcases List.mem_cons.mp hm with rfl | hm
    · exact ⟨_, List.mem_cons_self, h⟩
    · obtain ⟨y, hy, hl⟩ := Lists.of_mem t op hm
      exact ⟨y, List.mem_cons_of_mem _ hy, hl⟩

set_option maxHeartbeats 4000000 in
/-- Each of the four pieces of @main is the line of its own operations, and lines run one after the other are their concatenation run as one. -/
theorem main_eq (c : Dev nD) : main (F := F) c = seq ops := by
  have e : (ops : List (HloOp τ sig (Elt F))) = (opsA ++ (opsB0 ++ opsC0.take 55))
      ++ ((opsC0.drop 55 ++ (opsD0 ++ (opsB1 ++ opsC1.take 33)))
      ++ ((opsC1.drop 33 ++ (opsD1 ++ (opsE ++ opsF.take 1))) ++ (opsF.drop 1 ++ opsH))) := rfl
  rw [e, seq_append, seq_append, seq_append]
  rfl

theorem scopedRefs_eq : (Finset.univ.filter fun b : Ref sig .tc => b.isScoped) = ∅ := by decide
theorem scopedSems_eq : (Finset.univ.filter fun sm : SemLoc sig => sm.isScoped .tc) = ∅ := by decide

theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq
    (fun _ => List.forall_iff_forall_mem.mpr fun op h => (Lists.of_mem ops_lists op h).choose_spec.2.bufs) m ρ
    (fun _ op h => (Lists.of_mem ops_lists op h).choose_spec.2.fresh)

end Cert.ReferenceIdeal.Run

end
-- ==== Proof.RefKeep.lean ====
import proofs.«407449_j27977416966480_1_alg».proof.Proof.RefRun

noncomputable section

namespace Cert.ReferenceIdeal.Stage

open Idealize.ShloMosaic Idealize.ShloMosaic.StableHlo Cert.ReferenceIdeal Cert.ReferenceIdeal.Run

variable {F : FTy → Type} [FloatOps F] [Cert.ReferenceIdeal.Facts]

/-- A buffer not listed for the operations `a, …, a + n - 1` holds after them what it held before them. -/
theorem keep (a n : ℕ) (W : Valuation τ sig (Elt F)) {r : Ref sig .tc} (hr : r ∉ (opsW.drop a).take n) :
    after (((ops (F := F)).drop a).take n) W (Proc.devRef .tc r) = W (Proc.devRef .tc r) :=
  after_of_forall_not_mem _ W fun op hop hb => by
    obtain ⟨y, hy, hl⟩ := Lists.of_mem (List.forall₂_take n (List.forall₂_drop a ops_lists)) op hop
    rw [hl.writes, Finset.mem_singleton] at hb
    exact hr (Proc.devRef_injective _ hb ▸ hy)

end Cert.ReferenceIdeal.Stage

end
-- ==== Proof.HostChainR.lean ====
import proofs.«407449_j27977416966480_1_alg».proof.Proof.HostChain
import proofs.«407449_j27977416966480_1_alg».proof.ReferenceIdeal

set_option maxRecDepth 4096

noncomputable section

namespace Cert.HostChain

open Idealize.ShloMosaic Idealize.ShloMosaic.TcCoe

section Reference

open Cert.ReferenceIdeal Cert.ReferenceIdeal.Facts₀

variable [Cert.ReferenceIdeal.Facts]

def wrapR (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

def degR (dst : IVec S1600000 32) (w : FVec Ideal S1600000 .f32) : FVec Ideal S100000 .f32 :=
  addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst) w)
    (broadcastInDim S100000 ![] bcast_S_S100000 (constant S_ .f32 0x3F800000#32))

def dinvR (dst : IVec S1600000 32) (w : FVec Ideal S1600000 .f32) : FVec Ideal S100000 .f32 :=
  select (cmpf .ogt (degR dst w) (broadcastInDim S100000 ![] bcast_S_S100000 (constant S_ .f32 0x00000000#32)))
    (Host.rsqrt (degR dst w))
    (broadcastInDim S100000 ![] bcast_S_S100000 (id (constant S_ .f32 0x00000000#32)))

def coefR (src dst : IVec S1600000 32) (w : FVec Ideal S1600000 .f32) : FVec Ideal S1600000 .f32 :=
  mulf
    (mulf
      (Host.gather gather_S100000_S1600000x1_S1600000_n_0_n_n_0_1_1 (dinvR dst w)
        (broadcastInDim S1600000x1 ![0] bcast_S1600000_S1600000x1_0 (wrapR src)))
      w)
    (Host.gather gather_S100000_S1600000x1_S1600000_n_0_n_n_0_1_1 (dinvR dst w)
      (broadcastInDim S1600000x1 ![0] bcast_S1600000_S1600000x1_0 (wrapR dst)))

def aggR (src dst : IVec S1600000 32) (w : FVec Ideal S1600000 .f32) (h : FVec Ideal S100000x128 .f32) :
    FVec Ideal S100000x128 .f32 :=
  addf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf
        (broadcastInDim S1600000x128 ![0, 1] bcast_S1600000x1_S1600000x128_0_1
          (broadcastInDim S1600000x1 ![0] bcast_S1600000_S1600000x1_0 (coefR src dst w)))
        (Host.gather gather_S100000x128_S1600000x1_S1600000x128_1_0_n_n_0_1_1128 h
          (broadcastInDim S1600000x1 ![0] bcast_S1600000_S1600000x1_0 (wrapR src)))))
    (mulf
      (broadcastInDim S100000x128 ![0, 1] bcast_S100000x1_S100000x128_0_1
        (broadcastInDim S100000x1 ![0] bcast_S100000_S100000x1_0 (mulf (dinvR dst w) (dinvR dst w))))
      h)

end Reference

theorem aggR_eq_aggK [Cert.ReferenceIdeal.Facts]
    (src dst : IVec Cert.ReferenceIdeal.S1600000 32) (w : FVec Ideal Cert.ReferenceIdeal.S1600000 .f32)
    (h : FVec Ideal Cert.ReferenceIdeal.S100000x128 .f32) :
    aggR src dst w h = aggK src dst w h := rfl

end Cert.HostChain

end
-- ==== Proof.RefStageCE.lean ====
import proofs.«407449_j27977416966480_1_alg».proof.Proof.RefOpsList
import proofs.«407449_j27977416966480_1_alg».proof.Proof.RefOps
import proofs.«407449_j27977416966480_1_alg».proof.Proof.HostChainR
import Idealize.ShloMosaic.Lib.StableHlo.Run
import Idealize.ShloMosaic.Lib.Pipeline.Frame

set_option maxRecDepth 16384

noncomputable section

namespace Cert.ReferenceIdeal.Stage

open Idealize.ShloMosaic Idealize.ShloMosaic.TcCoe Idealize.ShloMosaic.StableHlo Idealize.ShloMosaic.ValueIdx Idealize.SL.Sem
open Cert.ReferenceIdeal Cert.ReferenceIdeal.Run Cert.Spec Cert.HostChain
open Cert.ReferenceIdeal.Facts₀ Cert.ReferenceIdeal.Facts

variable [Cert.ReferenceIdeal.Facts]

set_option quotPrecheck false in
local notation "⟪" r "⟫" => (Proc.devRef .tc r : DevRef τ sig)

theorem E_v148 (W : Valuation τ sig (Elt Ideal)) :
    StableHlo.after (opsE (F := Ideal)) W ⟪main_v148⟫
      = Spec.addRow
          (Spec.dot
            (Spec.relu (Spec.addRow (Spec.dot (W ⟪main_v139⟫) (W ⟪main_arg12⟫)) (fun q => W ⟪main_arg13⟫ (ix1 q))))
            (W ⟪main_arg14⟫))
          (fun q => W ⟪main_arg15⟫ (ix1 q)) := by
  after_results
  simp only [TRef.toBuf, TRef.ofBuf, cast_eq]
  rw [Ops.ref_dot, Ops.ref_addRow, Ops.ref_relu, Ops.ref_dot, Ops.ref_addRow]

-- Running a list is running its first n operations and then the rest.
theorem after_split (n : ℕ) (l : List (HloOp τ sig (Elt Ideal))) (V : Valuation τ sig (Elt Ideal)) :
    StableHlo.after l V = StableHlo.after (l.drop n) (StableHlo.after (l.take n) V) := by
  rw [← StableHlo.after_append, List.take_append_drop]

-- Operations 13 to 15 from any contents: the inverse square roots where the degree is positive, zero elsewhere.
theorem where0 (V : Valuation τ sig (Elt Ideal)) :
    StableHlo.after (((opsC0 (F := Ideal)).take 15).drop 12) V ⟪main_v15⟫
      = select (V ⟪main_v13⟫) (V ⟪main_v14⟫) (broadcastInDim S100000 ![] bcast_S_S100000 (id (V ⟪main_cst_2⟫))) := by
  simp only [List.take_succ_cons, List.take_zero, List.drop_succ_cons, List.drop_zero]
  after_results_simp
  rfl

-- Read operations 16 to 56 first, then the selection, then operations 1 to 12: what is left unfolds the aggregation.
theorem C0_v49 (W : Valuation τ sig (Elt Ideal)) :
    StableHlo.after (opsC0 (F := Ideal)) W ⟪main_v49⟫
      = Cert.HostChain.aggR (W ⟪main_v1⟫) (W ⟪main_v3⟫) (W ⟪main_v5⟫) (W ⟪main_v6⟫) := by
  rw [after_split 15]
  simp only [List.drop_succ_cons, List.drop_zero]
  after_results_simp
  rw [after_split 12, where0]
  simp only [List.take_succ_cons, List.take_zero, List.drop_succ_cons, List.drop_zero]
  after_results_simp
  rfl

-- The second layer's selection, as the first's.
theorem where1 (V : Valuation τ sig (Elt Ideal)) :
    StableHlo.after (((opsC1 (F := Ideal)).take 15).drop 12) V ⟪main_v82⟫
      = select (V ⟪main_v80⟫) (V ⟪main_v81⟫) (broadcastInDim S100000 ![] bcast_S_S100000 (id (V ⟪main_cst_16⟫))) := by
  simp only [List.take_succ_cons, List.take_zero, List.drop_succ_cons, List.drop_zero]
  after_results_simp
  rfl

-- The second layer's aggregation, as the first's.
theorem C1_v116 (W : Valuation τ sig (Elt Ideal)) :
    StableHlo.after (opsC1 (F := Ideal)) W ⟪main_v116⟫
      = Cert.HostChain.aggR (W ⟪main_v1⟫) (W ⟪main_v3⟫) (W ⟪main_v5⟫) (W ⟪main_v73⟫) := by
  rw [after_split 15]
  simp only [List.drop_succ_cons, List.drop_zero]
  after_results_simp
  rw [after_split 12, where1]
  simp only [List.take_succ_cons, List.take_zero, List.drop_succ_cons, List.drop_zero]
  after_results_simp
  rfl

end Cert.ReferenceIdeal.Stage

end
-- ==== Proof.LibCells.lean ====
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

section Scatter1

variable {N M w : Nat}

theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

end Cert.LibCells

end
-- ==== Proof.LibScatterGather2.lean ====
import Idealize.ShloMosaic.PureOps.Ideal
import Idealize.ShloMosaic.PureOps.ShapeOps
import Idealize.ShloMosaic.PureOps.Contract
import Idealize.ShloMosaic.Lib.ValueIdx
import proofs.«407449_j27977416966480_1_alg».proof.Proof.LibCells

noncomputable section

namespace Cert.LibScatterGather2

open Idealize.ShloMosaic Idealize.ShloMosaic.ValueIdx

section Scatter

variable {N C M w : Nat}

theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  rw [LibCells.resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

end Cert.LibScatterGather2

end
-- ==== Proof.RefPool.lean ====
import proofs.«407449_j27977416966480_1_alg».proof.ReferenceIdeal
import proofs.«407449_j27977416966480_1_alg».proof.Proof.Spec
import proofs.«407449_j27977416966480_1_alg».proof.Proof.LibPlainDot
import proofs.«407449_j27977416966480_1_alg».proof.Proof.LibScatterGather2
import proofs.«407449_j27977416966480_1_alg».proof.Proof.LibCells
import proofs.«407449_j27977416966480_1_alg».proof.Proof.LibIdealReal
import Idealize.ShloMosaic.Lib.IdealHost
import Idealize.ShloMosaic.Lib.ValueIdx
import Idealize.ShloMosaic.Lib.Pipeline.Value
import Idealize.ShloMosaic.Lib.KernelVsHost

noncomputable section

namespace Cert.ReferenceIdeal.Pool

open Idealize.ShloMosaic Idealize.ShloMosaic.ValueIdx Cert.ReferenceIdeal Cert.Spec
open Cert.ReferenceIdeal.Facts₀
open scoped BigOperators

variable [Cert.ReferenceIdeal.Facts]

-- Below 64, a word read as a signed integer is g exactly when it is g's word.
theorem toInt_eq_natCast_iff (b : BitVec 32) (g : ℕ) (hg : g < 64) :
    b.toInt = (g : ℤ) ↔ b = BitVec.ofNat 32 g := by
  rw [← BitVec.toNat_inj, BitVec.toNat_ofNat, BitVec.toInt_eq_toNat_cond]
  have := b.isLt
  split <;> omega

-- A sum over the rows labelled g is the sum over all rows of the indicator times the term.
theorem sum_filter_word {N : ℕ} (wd : Fin N → BitVec 32) (g : ℕ) (hg : g < 64) (f : Fin N → EReal) :
    ∑ e ∈ Finset.univ.filter (fun e : Fin N => (wd e).toInt = (g : ℤ)), f e
      = ∑ n : Fin N, Spec.onehot (wd n) g * f n := by
  rw [Finset.sum_filter]
  refine Finset.sum_congr rfl fun n _ => ?_
  unfold Spec.onehot
  by_cases h : wd n = BitVec.ofNat 32 g
  · rw [if_pos ((toInt_eq_natCast_iff _ g hg).mpr h), if_pos h, one_mul]
  · rw [if_neg (fun h' => h ((toInt_eq_natCast_iff _ g hg).mp h')), if_neg h, zero_mul]

theorem labelCol_apply (batch : IVec S100000 32) (e : Fin 100000) :
    broadcastInDim S100000x1 ![0] bcast_S100000_S100000x1_0 batch (ix2 e (0 : Fin 1)) = batch (ix1 e) := by
  refine broadcastInDim_apply _ _ _ (ix2 e (0 : Fin 1)) (ix1 e) ?_
  intro a
  match a with
  | ⟨0, _⟩ => rfl

-- Entry g of the scatter is zero plus one for every row labelled g.
theorem ref_cnt (batch : IVec S100000 32) :
    Host.scatterAdd (F := Ideal) scatter_S64_S100000x1_S100000_n_0_0_1
        (broadcastInDim S64 ![] bcast_S_S64 (constant S_ .f32 0x00000000#32))
        (broadcastInDim S100000x1 ![0] bcast_S100000_S100000x1_0 batch)
        (broadcastInDim S100000 ![] bcast_S_S100000 (constant S_ .f32 0x3F800000#32))
      = (fun i => Spec.poolCnt 64 (fun n => batch (ix1 n)) (i 0)) := by
  funext i
  obtain ⟨u, rfl⟩ : ∃ u, i = ix1 u := ⟨i 0, eq_ix1 i⟩
  rw [LibCells.scatterAdd1_apply _ rfl rfl rfl rfl]
  rw [sum_filter_word _ u.val u.isLt]
  rw [broadcastInDim_scalar_apply, constant_apply, LibIdealReal.ofBits_zero, zero_add]
  show _ = ∑ n : Fin 100000, Spec.onehot (batch (ix1 n)) u.val
  refine Finset.sum_congr rfl fun n _ => ?_
  rw [labelCol_apply, broadcastInDim_scalar_apply, constant_apply, LibIdealReal.ofBits_one, mul_one]

-- Row g of the scatter is zero plus the sum of the rows labelled g.
theorem ref_sum (h : FVec Ideal S100000x128 .f32) (batch : IVec S100000 32) :
    Host.scatterAdd (F := Ideal) scatter_S64x128_S100000x1_S100000x128_1_0_0_1
        (broadcastInDim S64x128 ![] bcast_S_S64x128 (constant S_ .f32 0x00000000#32))
        (broadcastInDim S100000x1 ![0] bcast_S100000_S100000x1_0 batch) h
      = Spec.poolSum 64 h (fun n => batch (ix1 n)) := by
  refine mat_ext fun u j => ?_
  rw [LibScatterGather2.scatterAdd_apply _ rfl rfl rfl rfl]
  rw [sum_filter_word _ u.val u.isLt]
  rw [broadcastInDim_scalar_apply, constant_apply, LibIdealReal.ofBits_zero, zero_add]
  show _ = ∑ n : Fin 100000, Spec.onehot (batch (ix1 n)) u.val * h (ix2 n j)
  refine Finset.sum_congr rfl fun n _ => ?_
  rw [labelCol_apply]

theorem ref_reps (s : FVec Ideal S64x128 .f32) (cnt : FVec Ideal S64 .f32) :
    Host.divf s (broadcastInDim S64x128 ![0, 1] bcast_S64x1_S64x128_0_1 (broadcastInDim S64x1 ![0] bcast_S64_S64x1_0
        (maximumf cnt (broadcastInDim S64 ![] bcast_S_S64 (constant S_ .f32 0x3F800000#32)))))
      = Spec.reps s (fun g => cnt (ix1 g)) := by
  refine mat_ext fun g d => ?_
  show Ideal.div (s (ix2 g d)) _ = Ideal.div (s (ix2 g d)) (max (cnt (ix1 g)) 1)
  refine congrArg (Ideal.div (s (ix2 g d))) ?_
  refine (broadcastInDim_apply _ _ _ (ix2 g d) (ix2 g (0 : Fin 1)) ?_).trans ?_
  · intro a
    match a with
    | ⟨0, _⟩ => rfl
    | ⟨1, _⟩ => rfl
  refine (broadcastInDim_apply _ _ _ (ix2 g (0 : Fin 1)) (ix1 g) ?_).trans ?_
  · intro a
    match a with
    | ⟨0, _⟩ => rfl
  rw [maximumf_apply, broadcastInDim_scalar_apply, constant_apply, LibIdealReal.ofBits_one]

theorem ref_dot1 (g : FVec Ideal S64x128 .f32) (W : FVec Ideal S128x128 .f32) :
    Host.dotGeneral dot_S64x128_S128x128_S64x128_1_0_0_1_n_n none g W = Spec.dot g W := by
  refine mat_ext fun p q => ?_
  exact LibPlainDot.dotGeneral_apply _ rfl rfl rfl rfl rfl rfl none .single g W p q

theorem ref_dot2 (g : FVec Ideal S64x128 .f32) (W : FVec Ideal S128x2 .f32) :
    Host.dotGeneral dot_S64x128_S128x2_S64x2_1_0_0_1_n_n none g W = Spec.dot g W := by
  refine mat_ext fun p q => ?_
  exact LibPlainDot.dotGeneral_apply _ rfl rfl rfl rfl rfl rfl none .single g W p q

theorem ref_addRow1 (g : FVec Ideal S64x128 .f32) (b : FVec Ideal S128 .f32) :
    addf g (broadcastInDim S64x128 ![0, 1] bcast_S1x128_S64x128_0_1 (broadcastInDim S1x128 ![1] bcast_S128_S1x128_1 b))
      = Spec.addRow g (fun q => b (ix1 q)) := by
  refine mat_ext fun p q => ?_
  show g (ix2 p q) + _ = g (ix2 p q) + b (ix1 q)
  exact congrArg (g (ix2 p q) + ·) ((broadcastInDim_oneRow_apply _ _ p q).trans
    (broadcastInDim_apply _ _ b _ (ix1 q) fun a => match a with | ⟨0, _⟩ => rfl))

theorem ref_addRow2 (z : FVec Ideal S64x2 .f32) (b : FVec Ideal S2 .f32) :
    addf z (broadcastInDim S64x2 ![0, 1] bcast_S1x2_S64x2_0_1 (broadcastInDim S1x2 ![1] bcast_S2_S1x2_1 b))
      = Spec.addRow z (fun q => b (ix1 q)) := by
  refine mat_ext fun p q => ?_
  show z (ix2 p q) + _ = z (ix2 p q) + b (ix1 q)
  exact congrArg (z (ix2 p q) + ·) ((broadcastInDim_oneRow_apply _ _ p q).trans
    (broadcastInDim_apply _ _ b _ (ix1 q) fun a => match a with | ⟨0, _⟩ => rfl))

theorem ref_relu1 (g : FVec Ideal S64x128 .f32) :
    maximumf g (broadcastInDim S64x128 ![] bcast_S_S64x128 (constant S_ .f32 0x00000000#32)) = Spec.relu g := by
  funext i
  rw [maximumf_apply, broadcastInDim_scalar_apply, constant_apply, LibIdealReal.ofBits_zero]
  rfl

end Cert.ReferenceIdeal.Pool

end
-- ==== Proof.RefStageFH.lean ====
import proofs.«407449_j27977416966480_1_alg».proof.ReferenceIdeal
import proofs.«407449_j27977416966480_1_alg».proof.Proof.Spec
import proofs.«407449_j27977416966480_1_alg».proof.Proof.RefPool
import proofs.«407449_j27977416966480_1_alg».proof.Proof.RefOpsList
import Idealize.ShloMosaic.Lib.StableHlo.Run

noncomputable section

namespace Cert.ReferenceIdeal.Stage

open Cert.ReferenceIdeal Cert.ReferenceIdeal.Run Idealize.ShloMosaic Idealize.ShloMosaic.TcCoe Idealize.SL.Sem
open Idealize.ShloMosaic.StableHlo Idealize.ShloMosaic.ValueIdx Cert.Spec
open Cert.ReferenceIdeal.Facts₀ Cert.ReferenceIdeal.Facts

variable [Cert.ReferenceIdeal.Facts]

local notation "⟪" b "⟫" => Proc.devRef Proc.tc b

set_option maxRecDepth 16384 in
theorem F_v160 (W : Valuation τ sig (Elt Ideal)) :
    StableHlo.after (opsF (F := Ideal)) W ⟪main_v160⟫
      = Spec.reps (Spec.poolSum 64 (W ⟪main_v148⟫) (fun n => W ⟪main_arg3⟫ (ix1 n)))
          (Spec.poolCnt 64 (fun n => W ⟪main_arg3⟫ (ix1 n))) := by
  after_results
  rw [Pool.ref_cnt, Pool.ref_sum, Pool.ref_reps]

set_option maxRecDepth 16384 in
theorem H_v169 (W : Valuation τ sig (Elt Ideal)) :
    StableHlo.after (opsH (F := Ideal)) W ⟪main_v169⟫
      = Spec.addRow (Spec.dot (Spec.relu (Spec.addRow (Spec.dot (W ⟪main_v160⟫) (W ⟪main_arg16⟫))
          (fun q => W ⟪main_arg17⟫ (ix1 q)))) (W ⟪main_arg18⟫)) (fun q => W ⟪main_arg19⟫ (ix1 q)) := by
  after_results
  rw [Pool.ref_dot1, Pool.ref_addRow1]
  simp only [cast_eq]
  rw [Pool.ref_relu1, Pool.ref_dot2, Pool.ref_addRow2]

end Cert.ReferenceIdeal.Stage

end
-- ==== Proof.RefG.lean ====
import proofs.«407449_j27977416966480_1_alg».proof.ReferenceIdeal
import proofs.«407449_j27977416966480_1_alg».proof.Proof.ArgsDefs
import proofs.«407449_j27977416966480_1_alg».proof.Proof.HostChainR

noncomputable section

namespace Cert.ReferenceIdeal.Val

open Idealize.ShloMosaic Idealize.ShloMosaic.TcCoe Idealize.SL.Sem Cert.ReferenceIdeal
open Cert.ReferenceIdeal.Facts₀ Cert.ReferenceIdeal.Facts

variable [Cert.ReferenceIdeal.Facts]

def srcR (m : (ℓ : Loc nD τ sig) → Buf (Elt Ideal) ℓ) (c : Dev nD) : IVec S1600000 32 :=
  shapeCast S1600000 (extractStridedSlice S1x1600000 ![0, 0] (Launch.ei m c) slices_S2x1600000_S1x1600000_0_0)
    shapeCasts_S1x1600000_S1600000

def dstR (m : (ℓ : Loc nD τ sig) → Buf (Elt Ideal) ℓ) (c : Dev nD) : IVec S1600000 32 :=
  shapeCast S1600000 (extractStridedSlice S1x1600000 ![1, 0] (Launch.ei m c) slices_S2x1600000_S1x1600000_1_0)
    shapeCasts_S1x1600000_S1600000

def wR (m : (ℓ : Loc nD τ sig) → Buf (Elt Ideal) ℓ) (c : Dev nD) : FVec Ideal S1600000 .f32 :=
  shapeCast S1600000 (extractStridedSlice S1600000x1 ![0, 1] (Launch.ea m c) slices_S1600000x2_S1600000x1_0_1)
    shapeCasts_S1600000x1_S1600000

def GR (m : (ℓ : Loc nD τ sig) → Buf (Elt Ideal) ℓ) (c : Dev nD) : Cert.Model.Agg :=
  fun h => Cert.HostChain.aggR (srcR m c) (dstR m c) (wR m c) h

end Cert.ReferenceIdeal.Val

end
-- ==== Proof.RefVal.lean ====
import proofs.«407449_j27977416966480_1_alg».proof.Proof.RefOps
import proofs.«407449_j27977416966480_1_alg».proof.Proof.RefKeep
import proofs.«407449_j27977416966480_1_alg».proof.Proof.RefStageCE
import proofs.«407449_j27977416966480_1_alg».proof.Proof.RefStageFH
import proofs.«407449_j27977416966480_1_alg».proof.Proof.RefRun
import proofs.«407449_j27977416966480_1_alg».proof.Proof.ArgsDefs
import proofs.«407449_j27977416966480_1_alg».proof.Proof.RefG
import Idealize.ShloMosaic.PureOps.Ideal
import Idealize.ShloMosaic.Lib.Pipeline.Frame

noncomputable section

namespace Cert.ReferenceIdeal.Val

open Idealize.ShloMosaic Idealize.ShloMosaic.TcCoe Idealize.ShloMosaic.StableHlo Idealize.ShloMosaic.ValueIdx Idealize.SL.Sem
open Cert.ReferenceIdeal Cert.ReferenceIdeal.Run
open Cert.ReferenceIdeal.Facts₀ Cert.ReferenceIdeal.Facts

variable [Cert.ReferenceIdeal.Facts]

local macro "⟪" r:term "⟫" : term => `((Proc.devRef .tc $r : DevRef τ sig))

theorem B0_v6 (W : Valuation τ sig (Elt Ideal)) :
    StableHlo.after (opsB0 (F := Ideal)) W ⟪main_v6⟫ = Spec.dot (W ⟪main_arg0⟫) (W ⟪main_arg4⟫) := by
  after_results
  exact Ops.ref_dot _ _
theorem B1_v73 (W : Valuation τ sig (Elt Ideal)) :
    StableHlo.after (opsB1 (F := Ideal)) W ⟪main_v73⟫ = Spec.dot (W ⟪main_v72⟫) (W ⟪main_arg8⟫) := by
  after_results
  exact Ops.ref_dot _ _

/-- A matrix plus a bias row, clipped at zero, then normalised column by column with its own column mean and centred variance. -/
def post (y : Spec.Mat 100000 128) (b γ β : Fin 128 → EReal) : Spec.Mat 100000 128 :=
  (fun z => Spec.bn z (Spec.mean z) (Spec.varR z) γ β) (Spec.relu (Spec.addRow y b))

set_option maxRecDepth 16384 in
theorem D0_v72 (W : Valuation τ sig (Elt Ideal)) :
    StableHlo.after (opsD0 (F := Ideal)) W ⟪main_v72⟫ = post (W ⟪main_v49⟫) (fun q => W ⟪main_arg5⟫ (ix1 q))
      (fun q => W ⟪main_arg6⟫ (ix1 q)) (fun q => W ⟪main_arg7⟫ (ix1 q)) := by
  after_results_simp
  simp only [TRef.ofBuf, TRef.toBuf, cast_eq]
  rw [Ops.ref_addRow (W ⟪main_v49⟫) (W ⟪main_arg5⟫), Ops.ref_relu, Ops.ref_mean, Ops.ref_var, Ops.ref_bn]
  rfl

set_option maxRecDepth 16384 in
theorem D1_v139 (W : Valuation τ sig (Elt Ideal)) :
    StableHlo.after (opsD1 (F := Ideal)) W ⟪main_v139⟫ = post (W ⟪main_v116⟫) (fun q => W ⟪main_arg9⟫ (ix1 q))
      (fun q => W ⟪main_arg10⟫ (ix1 q)) (fun q => W ⟪main_arg11⟫ (ix1 q)) := by
  after_results_simp
  simp only [TRef.ofBuf, TRef.toBuf, cast_eq]
  rw [Ops.ref_addRow (W ⟪main_v116⟫) (W ⟪main_arg9⟫), Ops.ref_relu, Ops.ref_mean, Ops.ref_var, Ops.ref_bn]
  rfl

section Compose

variable (m : (ℓ : Loc nD τ sig) → Buf (Elt Ideal) ℓ) (c : Dev nD)

/-- The contents of device `c`'s buffers once the first `k` operations have run from the launch contents. -/
def V (k : ℕ) : Valuation τ sig (Elt Ideal) := StableHlo.after ((ops (F := Ideal)).take k) (launchContents m c)

/-- Operations `a, …, b - 1` take the contents after the first `a` to the contents after the first `b`. -/
theorem V_step (a b : ℕ) (S : List (HloOp τ sig (Elt Ideal))) (hS : ((ops (F := Ideal)).drop a).take (b - a) = S := by rfl)
    (h : a ≤ b := by decide) : V m c b = StableHlo.after S (V m c a) := by
  obtain ⟨n, rfl⟩ := Nat.exists_eq_add_of_le h
  subst hS
  unfold V
  rw [Nat.add_sub_cancel_left, List.take_add, StableHlo.after_append]

/-- A buffer that none of the operations `a, …, b - 1` writes holds after the first `b` what it held after the first `a`. -/
theorem V_keep (a b : ℕ) {r : Ref sig .tc} (hr : r ∉ (opsW.drop a).take (b - a) := by decide) (h : a ≤ b := by decide) :
    V m c b ⟪r⟫ = V m c a ⟪r⟫ := by
  rw [V_step m c a b _ rfl h]
  exact Stage.keep a (b - a) _ hr

local notation "𝐚" => Launch.args m c

theorem v1 : V m c 6 ⟪main_v1⟫ = srcR m c := by
  rw [V_step m c 0 6 opsA]; after_results; rfl
theorem v3 : V m c 6 ⟪main_v3⟫ = dstR m c := by
  rw [V_step m c 0 6 opsA]; after_results; rfl
theorem v5 : V m c 6 ⟪main_v5⟫ = wR m c := by
  rw [V_step m c 0 6 opsA]; after_results; rfl

theorem v6 : V m c 7 ⟪main_v6⟫ = Spec.dot 𝐚.x 𝐚.Wg0 := by
  rw [V_step m c 6 7 opsB0, B0_v6, V_keep m c 0 6 (r := main_arg0), V_keep m c 0 6 (r := main_arg4)]
  rfl

theorem v49 : V m c 63 ⟪main_v49⟫ = GR m c (Spec.dot 𝐚.x 𝐚.Wg0) := by
  rw [V_step m c 7 63 opsC0, Stage.C0_v49, V_keep m c 6 7 (r := main_v1), V_keep m c 6 7 (r := main_v3), V_keep m c 6 7 (r := main_v5),
    v1, v3, v5, v6]
  rfl

theorem v72 : V m c 113 ⟪main_v72⟫ = Model.layerR (GR m c) 𝐚.x 𝐚.Wg0 𝐚.bg0 𝐚.gamma0 𝐚.beta0 := by
  rw [V_step m c 63 113 opsD0, D0_v72, v49, V_keep m c 0 63 (r := main_arg5), V_keep m c 0 63 (r := main_arg6),
    V_keep m c 0 63 (r := main_arg7)]
  rfl

theorem v73 : V m c 114 ⟪main_v73⟫ = Spec.dot (Model.layerR (GR m c) 𝐚.x 𝐚.Wg0 𝐚.bg0 𝐚.gamma0 𝐚.beta0) 𝐚.Wg1 := by
  rw [V_step m c 113 114 opsB1, B1_v73, v72, V_keep m c 0 113 (r := main_arg8)]
  rfl

theorem v116 : V m c 170 ⟪main_v116⟫
    = GR m c (Spec.dot (Model.layerR (GR m c) 𝐚.x 𝐚.Wg0 𝐚.bg0 𝐚.gamma0 𝐚.beta0) 𝐚.Wg1) := by
  rw [V_step m c 114 170 opsC1, Stage.C1_v116, V_keep m c 6 114 (r := main_v1), V_keep m c 6 114 (r := main_v3),
    V_keep m c 6 114 (r := main_v5), v1, v3, v5, v73]
  rfl

theorem v139 : V m c 220 ⟪main_v139⟫
    = Model.layerR (GR m c) (Model.layerR (GR m c) 𝐚.x 𝐚.Wg0 𝐚.bg0 𝐚.gamma0 𝐚.beta0) 𝐚.Wg1 𝐚.bg1 𝐚.gamma1 𝐚.beta1 := by
  rw [V_step m c 170 220 opsD1, D1_v139, v116, V_keep m c 0 170 (r := main_arg9), V_keep m c 0 170 (r := main_arg10),
    V_keep m c 0 170 (r := main_arg11)]
  rfl

theorem v148 : V m c 231 ⟪main_v148⟫ = Model.out0R (GR m c) 𝐚 := by
  rw [V_step m c 220 231 opsE, Stage.E_v148, v139, V_keep m c 0 220 (r := main_arg12), V_keep m c 0 220 (r := main_arg13),
    V_keep m c 0 220 (r := main_arg14), V_keep m c 0 220 (r := main_arg15)]
  rfl

theorem v160 : V m c 247 ⟪main_v160⟫ = Model.out1R (GR m c) 𝐚 := by
  rw [V_step m c 231 247 opsF, Stage.F_v160, v148, V_keep m c 0 231 (r := main_arg3)]
  rfl

theorem v169 : V m c 258 ⟪main_v169⟫ = Model.out2R (GR m c) 𝐚 := by
  rw [V_step m c 247 258 opsH, Stage.H_v169, v160, V_keep m c 0 247 (r := main_arg16), V_keep m c 0 247 (r := main_arg17),
    V_keep m c 0 247 (r := main_arg18), V_keep m c 0 247 (r := main_arg19)]
  rfl

end Compose

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v148) = Cert.Model.out0R (GR m c) (Launch.args m c)
      ∧ r.2.mem ((c.tc : Thread nD τ).loc main_v160) = Cert.Model.out1R (GR m c) (Launch.args m c)
      ∧ r.2.mem ((c.tc : Thread nD τ).loc main_v169) = Cert.Model.out2R (GR m c) (Launch.args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => by
    have e : (ops (F := Ideal)).take 258 = ops := List.take_of_length_le (Nat.le_of_eq rfl)
    have e' : StableHlo.after (ops (F := Ideal)) (launchContents m c) = V m c 258 := by rw [V, e]
    simp only [h c, e']
    refine ⟨(V_keep m c 231 258).trans (v148 m c), (V_keep m c 247 258).trans (v160 m c), v169 m c, ?_⟩
    and_intros <;> exact V_keep m c 0 258) (Run.run_raw m ρ)

end Cert.ReferenceIdeal.Val

end
-- ==== Proof.Bridge.lean ====
import proofs.«407449_j27977416966480_1_alg».proof.Proof.Model
import proofs.«407449_j27977416966480_1_alg».proof.Proof.Alg

noncomputable section

namespace Cert.Bridge

open Idealize.ShloMosaic Idealize.ShloMosaic.ValueIdx Cert.Spec Cert.Model

variable (G : Agg) (hG : ∀ h : Mat 100000 128, IsReal h → IsReal (G h)) (a : Args) (ha : a.Real)

theorem preK_eq (hin : Mat 100000 128) (W : Mat 128 128) (b : Fin 128 → EReal) : preK G hin W b = preR G hin W b := by
  show relu (addRow (G (addRow (dot hin W) (fun _ => 0))) b) = relu (addRow (G (dot hin W)) b)
  rw [Alg.addRow_zero]

include hG in
theorem isReal_preR {hin : Mat 100000 128} {W : Mat 128 128} {b : Fin 128 → EReal} (hh : IsReal hin) (hW : IsReal W)
    (hb : IsRealF b) : IsReal (preR G hin W b) :=
  Alg.isReal_relu (Alg.isReal_addRow (hG _ (Alg.isReal_dot hh hW)) hb)

include hG in
theorem layer_eq {hin : Mat 100000 128} {W : Mat 128 128} {b : Fin 128 → EReal} (γ β : Fin 128 → EReal)
    (hh : IsReal hin) (hW : IsReal W) (hb : IsRealF b) : layerK G hin W b γ β = layerR G hin W b γ β := by
  show bn (preK G hin W b) (mean (preK G hin W b)) (varK (preK G hin W b)) γ β =
    bn (preR G hin W b) (mean (preR G hin W b)) (varR (preR G hin W b)) γ β
  rw [preK_eq, Alg.var_eq _ (isReal_preR G hG hh hW hb)]

include hG in
theorem isReal_layerR {hin : Mat 100000 128} {W : Mat 128 128} {b γ β : Fin 128 → EReal} (hh : IsReal hin)
    (hW : IsReal W) (hb : IsRealF b) (hγ : IsRealF γ) (hβ : IsRealF β) : IsReal (layerR G hin W b γ β) :=
  Alg.isReal_bn (isReal_preR G hG hh hW hb) hγ hβ

include hG ha

theorem out0_eq : out0K G a = out0R G a := by
  show head (layerK G (layerK G a.x a.Wg0 a.bg0 a.gamma0 a.beta0) a.Wg1 a.bg1 a.gamma1 a.beta1) a =
    head (layerR G (layerR G a.x a.Wg0 a.bg0 a.gamma0 a.beta0) a.Wg1 a.bg1 a.gamma1 a.beta1) a
  rw [layer_eq G hG a.gamma0 a.beta0 ha.x ha.Wg0 ha.bg0,
    layer_eq G hG a.gamma1 a.beta1 (isReal_layerR G hG ha.x ha.Wg0 ha.bg0 ha.gamma0 ha.beta0) ha.Wg1 ha.bg1]

theorem out1_eq : out1K G a = out1R G a := by
  show pooled (out0K G a) a = pooled (out0R G a) a
  rw [out0_eq G hG a ha]

theorem out2_eq : out2K G a = out2R G a := by
  show logits (out1K G a) a = logits (out1R G a) a
  rw [out1_eq G hG a ha]

end Cert.Bridge

end
-- ==== Proof.PreFinite.lean ====
import proofs.«407449_j27977416966480_1_alg».proof.Defs
import proofs.«407449_j27977416966480_1_alg».proof.Proof.ArgsDefs
import proofs.«407449_j27977416966480_1_alg».proof.Proof.Gen.Pre_finite_inputs
import Idealize.ShloMosaic.Lib.ReduceAll
import Mathlib.Data.EReal.Basic
import Mathlib.Data.EReal.Operations

noncomputable section

namespace Cert.PreFinite

open Idealize.ShloMosaic Idealize.ShloMosaic.ValueIdx Idealize.SL.Sem

instance : Subsingleton Cert.Pre_finite_inputs.S_.Idx := ⟨fun a b => funext fun d => d.elim0⟩

-- |x| < +∞ rules out both infinities, and every other extended real is a coerced real.
theorem real_of_abs_lt (x : EReal)
    (h : Ideal.cmp .olt (max x (-x)) (Ideal.ofBits .f32 0x7F800000#32) = 1#1) : ∃ r : ℝ, x = (r : EReal) := by
  rw [show Ideal.ofBits .f32 0x7F800000#32 = ⊤ by simp [Ideal.ofBits, Ideal.ieee]] at h
  have hlt : max x (-x) < ⊤ := by
    by_contra hn
    simp [Ideal.cmp, hn] at h
  obtain ⟨h1, h2⟩ := max_lt_iff.1 hlt
  exact ⟨x.toReal, (EReal.coe_toReal h1.ne fun hx => by simp [hx] at h2).symm⟩

-- The test of an array is the conjunction of |x i| < +∞ over all its indices, at any shape.
theorem real_of_all {s : Shape} {axes : List (Fin s.rank)}
    {hb : Cert.Pre_finite_inputs.S_.BroadcastsInDim s (![] : Fin 0 → Fin s.rank)}
    {hr : s.ReducesTo axes Cert.Pre_finite_inputs.S_} {hu : 0 < Cert.Pre_finite_inputs.S_.numel}
    {x : FVec Ideal s .f32} {j : Cert.Pre_finite_inputs.S_.Idx}
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1)
    (i : s.Idx) : ∃ r : ℝ, x i = (r : EReal) :=
  real_of_abs_lt (x i) (Host.reduce_andi_all _ _ hr hu j e i)

theorem andi_one {x y : IVec Cert.Pre_finite_inputs.S_ 1} {j : Cert.Pre_finite_inputs.S_.Idx} :
    andi x y j = 1#1 ↔ x j = 1#1 ∧ y j = 1#1 := IntOp.andi_eq_one

variable [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD)
include h

-- The precondition is a conjunction, nested to the left, of one test per float argument; the first ten are used.
theorem pre_real :
    (Cert.KernelIdeal.Launch.args m c).Real ∧ Cert.Spec.IsReal (Cert.KernelIdeal.Launch.ea m c) := by
  have h := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h
  simp only [andi_one] at h
  obtain ⟨⟨⟨⟨⟨⟨⟨⟨⟨⟨⟨⟨⟨⟨⟨⟨⟨h0, h2⟩, h4⟩, h5⟩, h6⟩, h7⟩, h8⟩, h9⟩, h10⟩, h11⟩, -⟩, -⟩, -⟩, -⟩, -⟩, -⟩, -⟩, -⟩ := h
  exact ⟨{ x := fun _ _ => real_of_all h0 _
           Wg0 := fun _ _ => real_of_all h4 _
           bg0 := fun _ => real_of_all h5 _
           gamma0 := fun _ => real_of_all h6 _
           beta0 := fun _ => real_of_all h7 _
           Wg1 := fun _ _ => real_of_all h8 _
           bg1 := fun _ => real_of_all h9 _
           gamma1 := fun _ => real_of_all h10 _
           beta1 := fun _ => real_of_all h11 _ }, fun _ _ => real_of_all h2 _⟩

theorem args_real : (Cert.KernelIdeal.Launch.args m c).Real := (pre_real m h c).1

theorem ea_real : Cert.Spec.IsReal (Cert.KernelIdeal.Launch.ea m c) := (pre_real m h c).2

end Cert.PreFinite

end
-- ==== Proof.Glue.lean ====
import proofs.«407449_j27977416966480_1_alg».proof.Defs
import proofs.«407449_j27977416966480_1_alg».proof.Proof.ArgsDefs

noncomputable section

namespace Cert.Glue

open Idealize.ShloMosaic Idealize.SL.Sem

-- The two launch memories hold the same twenty argument arrays.
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : Agree m m') (c : Dev Cert.KernelIdeal.nD)
include hagree

-- Each field of the model's arguments is one of the twenty arrays on which the two memories agree.
theorem args_eq : Cert.ReferenceIdeal.Launch.args m' c = Cert.KernelIdeal.Launch.args m c := by
  simp only [Cert.ReferenceIdeal.Launch.args, Cert.KernelIdeal.Launch.args, hagree c]

theorem ei_eq : Cert.ReferenceIdeal.Launch.ei m' c = Cert.KernelIdeal.Launch.ei m c :=
  (hagree c).2.1

theorem ea_eq : Cert.ReferenceIdeal.Launch.ea m' c = Cert.KernelIdeal.Launch.ea m c :=
  (hagree c).2.2.1

end Cert.Glue

end
-- ==== Proof.HostReal.lean ====
import proofs.«407449_j27977416966480_1_alg».proof.Proof.HostChain
import proofs.«407449_j27977416966480_1_alg».proof.Proof.Spec
import proofs.«407449_j27977416966480_1_alg».proof.Proof.LibIdealReal
import Idealize.ShloMosaic.PureOps.Ideal
import Idealize.ShloMosaic.Lib.ValueIdx
import Mathlib.Data.EReal.Basic
import Mathlib.Data.EReal.Operations

noncomputable section

namespace Cert.HostReal

open Idealize.ShloMosaic Idealize.ShloMosaic.ValueIdx
open scoped BigOperators

def AllReal {s : Shape} (v : s.Idx → EReal) : Prop := ∀ i, ∃ r : ℝ, v i = (r : EReal)

variable {s t : Shape} {φ : FTy}

-- A broadcast or gather entry is some entry of the operand, whatever the index words are.
theorem allReal_broadcastInDim (dims : Fin s.rank → Fin t.rank) (h : s.BroadcastsInDim t dims) {x : s.Idx → EReal}
    (hx : AllReal x) : AllReal (broadcastInDim t dims h x) := fun _ => hx _

theorem allReal_gather {si : Shape} {w : Nat} (d : GatherDims s si t) {x : s.Idx → EReal} (hx : AllReal x)
    (idx : IVec si w) : AllReal (Host.gather d x idx) := fun _ => hx _

theorem allReal_constant_zero (s : Shape) : AllReal (constant s .f32 0x00000000#32 : FVec Ideal s .f32) :=
  fun _ => ⟨0, LibIdealReal.ofBits_zero_coe⟩

theorem allReal_constant_one (s : Shape) : AllReal (constant s .f32 0x3F800000#32 : FVec Ideal s .f32) :=
  fun _ => ⟨1, LibIdealReal.ofBits_one_coe⟩

theorem allReal_addf {x y : FVec Ideal s φ} (hx : AllReal x) (hy : AllReal y) : AllReal (addf x y) := fun i => by
  obtain ⟨a, ha⟩ := hx i
  obtain ⟨b, hb⟩ := hy i
  exact ⟨a + b, by rw [addf_apply, ha, hb, LibIdealReal.add_coe]⟩

theorem allReal_mulf {x y : FVec Ideal s φ} (hx : AllReal x) (hy : AllReal y) : AllReal (mulf x y) := fun i => by
  obtain ⟨a, ha⟩ := hx i
  obtain ⟨b, hb⟩ := hy i
  exact ⟨a * b, by rw [mulf_apply, ha, hb, LibIdealReal.mul_coe]⟩

theorem exists_real_add_sum {ι : Type*} (S : Finset ι) (g : ι → EReal) (hg : ∀ j, ∃ r : ℝ, g j = (r : EReal)) (a : EReal)
    (ha : ∃ r : ℝ, a = (r : EReal)) : ∃ r : ℝ, a + ∑ j ∈ S, g j = (r : EReal) := by
  obtain ⟨a', rfl⟩ := ha
  choose f hf using hg
  exact ⟨a' + ∑ j ∈ S, f j, by rw [LibIdealReal.sum_of_eq S g f (fun j _ => hf j), LibIdealReal.add_coe]⟩

-- A scatter-add entry is the table's entry plus a finite sum of update entries, whatever the index words are.
theorem allReal_scatterAdd {si u : Shape} {w : Nat} (d : ScatterDims s si u) {x : FVec Ideal s φ} (hx : AllReal x)
    (idx : IVec si w) {upd : FVec Ideal u φ} (hu : AllReal upd) : AllReal (Host.scatterAdd d x idx upd) :=
  fun i => exists_real_add_sum _ upd hu (x i) (hx i)

-- The inverse square root is taken only where the operand is positive, and there it is a real.
theorem allReal_select_rsqrt {x y z : FVec Ideal s .f32} (hx : AllReal x) (hy : ∀ i, y i = 0) (hz : AllReal z) :
    AllReal (select (cmpf .ogt x y) (Host.rsqrt x) z) := by
  intro i
  obtain ⟨r, hr⟩ := hx i
  show ∃ q : ℝ, Scalar.select (Ideal.cmp .ogt (x i) (y i)) (Ideal.rsqrt (x i)) (z i) = (q : EReal)
  rw [hr, hy i]
  unfold Scalar.select
  by_cases h : (0 : ℝ) < r
  · have hc : Ideal.cmp .ogt (r : EReal) 0 = 1#1 := by simp [Ideal.cmp, h]
    rw [hc, if_pos (show (1#1 : BitVec 1) = 1 from rfl), Ideal.rsqrt_coe, if_neg (not_lt.mpr h.le), if_neg h.ne']
    exact ⟨_, rfl⟩
  · have hc : Ideal.cmp .ogt (r : EReal) 0 = 0#1 := by simp [Ideal.cmp, h]
    rw [hc, if_neg (show ¬ (0#1 : BitVec 1) = 1 by decide)]
    exact hz i

theorem isReal_aggK [Cert.KernelIdeal.Facts] (src dst : IVec Cert.KernelIdeal.S1600000 32)
    (w : FVec Ideal Cert.KernelIdeal.S1600000 .f32) (h : FVec Ideal Cert.KernelIdeal.S100000x128 .f32)
    (hw : ∀ e : Fin 1600000, ∃ r : ℝ, w (ix1 e) = (r : EReal)) (hh : Cert.Spec.IsReal h) :
    Cert.Spec.IsReal (Cert.HostChain.aggK src dst w h) := by
  have hW : AllReal w := fun i => by rw [eq_ix1 i]; exact hw _
  have hH : AllReal h := fun i => by rw [eq_ix2 i]; exact hh _ _
  have h0 {t : Shape} {dims} {hb} : AllReal (broadcastInDim t dims hb (constant Cert.KernelIdeal.S_ .f32 0x00000000#32 : FVec Ideal _ .f32)) :=
    allReal_broadcastInDim _ _ (allReal_constant_zero _)
  have hdinv : AllReal (Cert.HostChain.dinvK dst w) :=
    allReal_select_rsqrt
      (allReal_addf (allReal_scatterAdd _ h0 _ hW) (allReal_broadcastInDim _ _ (allReal_constant_one _)))
      (fun _ => LibIdealReal.ofBits_zero) h0
  have hcoef : AllReal (Cert.HostChain.coefK src dst w) :=
    allReal_mulf (allReal_mulf (allReal_gather _ hdinv _) hW) (allReal_gather _ hdinv _)
  exact fun p q => allReal_addf
    (allReal_scatterAdd _ h0 _
      (allReal_mulf (allReal_broadcastInDim _ _ (allReal_broadcastInDim _ _ hcoef)) (allReal_gather _ hH _)))
    (allReal_mulf (allReal_broadcastInDim _ _ (allReal_broadcastInDim _ _ (allReal_mulf hdinv hdinv))) hH) (ix2 p q)

end Cert.HostReal

end
-- ==== Proof.Glue2.lean ====
import proofs.«407449_j27977416966480_1_alg».proof.Defs
import proofs.«407449_j27977416966480_1_alg».proof.Proof.Glue
import proofs.«407449_j27977416966480_1_alg».proof.Proof.KG
import proofs.«407449_j27977416966480_1_alg».proof.Proof.KHost
import proofs.«407449_j27977416966480_1_alg».proof.Proof.HostReal
import proofs.«407449_j27977416966480_1_alg».proof.Proof.PreFinite
import proofs.«407449_j27977416966480_1_alg».proof.Proof.RefG
import proofs.«407449_j27977416966480_1_alg».proof.Proof.HostChainR
import Idealize.ShloMosaic.Lib.Pipeline.Value
import Idealize.ShloMosaic.Lib.ValueIdx
import Idealize.ShloMosaic.Lib.ValueLayout

noncomputable section

namespace Cert.Glue

open Idealize.ShloMosaic Idealize.ShloMosaic.ValueIdx Idealize.SL.Sem

-- The reshape keeps the row-major position e * 1 + 0 = e; the slice shifts the column by one.
theorem col1_apply {α : Type} (x : Cert.KernelIdeal.S1600000x2.Idx → α) (e : Fin 1600000) :
    shapeCast Cert.KernelIdeal.S1600000 (extractStridedSlice Cert.KernelIdeal.S1600000x1 ![0, 1] x Cert.KernelIdeal.Facts₀.slices_S1600000x2_S1600000x1_0_1) Cert.KernelIdeal.Facts₀.shapeCasts_S1600000x1_S1600000 (ix1 e)
      = x (ix2 e 1) :=
  (shapeCast_apply _ _ (ix1 e) (ix2 e (0 : Fin 1))
    (by rw [Shape.rowMajor_val_two, Shape.rowMajor_val_one]; show e.val * 1 + 0 = e.val; omega)).trans
    (slice2_axis1_apply 1 x _ e 0 1 rfl)

-- The weight of edge e is the edge attribute at (e, 1), a real number under the precondition.
theorem GK_real [hP : Cert.Pre_finite_inputs.Facts] (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    ∀ h : Cert.Spec.Mat 100000 128, Cert.Spec.IsReal h → Cert.Spec.IsReal (Cert.KernelIdeal.Chain.GK m ρ c h) :=
  fun h hh => Cert.HostReal.isReal_aggK _ _ _ h (fun e => by
    dsimp only [Cert.KernelIdeal.Gen.W1]
    rw [Cert.KernelIdeal.Host.h0_v5]
    exact (Cert.PreFinite.ea_real m hpre c e 1).imp fun _ => (col1_apply _ e).trans) hh

variable [Cert.ReferenceIdeal.Facts] (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hagree : Agree m m')
    (c : Dev Cert.KernelIdeal.nD)
include hagree

-- Both programs cut the same two rows and the same column out of agreeing arrays and aggregate by one function.
theorem G_eq : Cert.ReferenceIdeal.Val.GR m' c = Cert.KernelIdeal.Chain.GK m ρ c := by
  funext h
  unfold Cert.ReferenceIdeal.Val.GR Cert.KernelIdeal.Chain.GK Cert.ReferenceIdeal.Val.srcR Cert.ReferenceIdeal.Val.dstR
    Cert.ReferenceIdeal.Val.wR
  dsimp only [Cert.KernelIdeal.Gen.W1]
  rw [Cert.HostChain.aggR_eq_aggK, ei_eq m m' hagree c, ea_eq m m' hagree c, Cert.KernelIdeal.Host.h0_v1,
    Cert.KernelIdeal.Host.h0_v3, Cert.KernelIdeal.Host.h0_v5]
  rfl

end Cert.Glue

end
-- ==== Proof.lean ====
import proofs.«407449_j27977416966480_1_alg».proof.Defs
import proofs.«407449_j27977416966480_1_alg».proof.Proof.Gen.Kernel
import proofs.«407449_j27977416966480_1_alg».proof.Proof.Gen.Kernel.Frame
import proofs.«407449_j27977416966480_1_alg».proof.Proof.Gen.KernelIdeal
import proofs.«407449_j27977416966480_1_alg».proof.Proof.Gen.KernelIdeal.Frame
import proofs.«407449_j27977416966480_1_alg».proof.Proof.Gen.ReferenceIdeal
import proofs.«407449_j27977416966480_1_alg».proof.Proof.Gen.Pre_finite_inputs
import proofs.«407449_j27977416966480_1_alg».proof.Proof.KRun
import proofs.«407449_j27977416966480_1_alg».proof.Proof.KChain
import proofs.«407449_j27977416966480_1_alg».proof.Proof.RefVal
import proofs.«407449_j27977416966480_1_alg».proof.Proof.Bridge
import proofs.«407449_j27977416966480_1_alg».proof.Proof.PreFinite
import proofs.«407449_j27977416966480_1_alg».proof.Proof.Glue
import proofs.«407449_j27977416966480_1_alg».proof.Proof.Glue2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Val.run m ρ)

theorem preserves : Cert.preserves_Kernel_KernelIdeal :=
  IdealRules.truncf_extf.statement Cert.KernelIdeal.S5000x64 .f32 .bf16

theorem algebraic : Cert.algebraic_KernelIdeal_ReferenceIdeal := by
  intro m ρ m' ρ' hpre hagree
  refine ⟨fun c => Cert.Model.out0R (Cert.ReferenceIdeal.Val.GR m' c) (Cert.ReferenceIdeal.Launch.args m' c),
    fun c => Cert.Model.out1R (Cert.ReferenceIdeal.Val.GR m' c) (Cert.ReferenceIdeal.Launch.args m' c),
    fun c => Cert.Model.out2R (Cert.ReferenceIdeal.Val.GR m' c) (Cert.ReferenceIdeal.Launch.args m' c), ?_,
    Cert.ReferenceIdeal.Val.run m' ρ'⟩
  refine (θ_run Cert.KernelIdeal.defs _ _).mono (fun r h c => ?_) (Cert.KernelIdeal.Vals.run_vals m ρ)
  obtain ⟨h0, h1, h2, hargs⟩ := h c
  have hG := Cert.Glue.GK_real m ρ hpre c
  have hA := Cert.PreFinite.args_real m hpre c
  have eG := Cert.Glue.G_eq m ρ m' hagree c
  have eA := Cert.Glue.args_eq m m' hagree c
  refine ⟨h0.trans ?_, h1.trans ?_, h2.trans ?_, hargs⟩
  · show _ = Cert.Model.out0R (Cert.ReferenceIdeal.Val.GR m' c) (Cert.ReferenceIdeal.Launch.args m' c)
    rw [eG, eA, Cert.KernelIdeal.Chain.out0 m ρ c]
    exact Cert.Bridge.out0_eq _ hG _ hA
  · show _ = Cert.Model.out1R (Cert.ReferenceIdeal.Val.GR m' c) (Cert.ReferenceIdeal.Launch.args m' c)
    rw [eG, eA, Cert.KernelIdeal.Chain.out1 m ρ c]
    exact Cert.Bridge.out1_eq _ hG _ hA
  · show _ = Cert.Model.out2R (Cert.ReferenceIdeal.Val.GR m' c) (Cert.ReferenceIdeal.Launch.args m' c)
    rw [eG, eA, Cert.KernelIdeal.Chain.out2 m ρ c]
    exact Cert.Bridge.out2_eq _ hG _ hA

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
